-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S10 : Shape := ⟨1, ![10]⟩
abbrev S8192x1024 : Shape := ⟨2, ![8192, 1024]⟩
abbrev S_ : Shape := ⟨0, ![]⟩
abbrev S1x1024 : Shape := ⟨2, ![1, 1024]⟩
abbrev S512x1024 : Shape := ⟨2, ![512, 1024]⟩
abbrev S1x512x1024 : Shape := ⟨3, ![1, 512, 1024]⟩
abbrev S1 : Shape := ⟨1, ![1]⟩
abbrev S512x1 : Shape := ⟨2, ![512, 1]⟩
abbrev S512x512 : Shape := ⟨2, ![512, 512]⟩
abbrev S512 : Shape := ⟨1, ![512]⟩

abbrev nBuf : Space → Nat
  | .hbm => 30
  | .vmem => 25
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S8192x1024, .bf16⟩
  | .hbm, ⟨24, _⟩ => ⟨S8192x1024, .bf16⟩
  | .hbm, ⟨25, _⟩ => ⟨S8192x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .bf16⟩
  | .hbm, ⟨29, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .f32⟩
  | .local _ .vmem, ⟨21, _⟩ => ⟨S1x512x1024, .f32⟩
  | .local _ .vmem, ⟨22, _⟩ => ⟨S512x1, .f32⟩
  | .local _ .vmem, ⟨23, _⟩ => ⟨S512x1, .f32⟩
  | .local _ .vmem, ⟨24, _⟩ => ⟨S512x1024, .f32⟩
  | .local _ .smem, ⟨0, _⟩ => ⟨S10, .i32⟩
  | .local _ .smem, ⟨1, _⟩ => ⟨S10, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x1024_S8192x1024 : S4x2048x1024.ShapeCasts S8192x1024
  transposes_S1024x1024_S1024x1024_1_0 : S1024x1024.Transposes [1, 0] S1024x1024
  bcast_S_S1024x1024 : S_.BroadcastsInDim S1024x1024 (![] : Fin 0 → Fin S1024x1024.rank)
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  iota_S512x512_d0_w32 : S512x512.Iotas .tc 32 [0]
  iota_S512x512_d1_w32 : S512x512.Iotas .tc 32 [1]
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev spec1_0 : Pipeline.WinSpec sig grid1.rank :=
  Pipeline.WinSpec.ofSpec (Memref.whole main_v15) S1x512x1024.size reads1_0 false false 2 stage1_0 sem1_0 nbuf1_0 hstage1_0

abbrev spec1_1 : Pipeline.WinSpec sig grid1.rank :=
  Pipeline.WinSpec.ofSpec (Memref.whole main_v16) S1x512x1024.size reads1_1 false false 2 stage1_1 sem1_1 nbuf1_1 hstage1_1

abbrev spec1_2 : Pipeline.WinSpec sig grid1.rank :=
  Pipeline.WinSpec.ofSpec (Memref.whole main_v17) S1x512x1024.size reads1_2 false false 2 stage1_2 sem1_2 nbuf1_2 hstage1_2

abbrev spec1_3 : Pipeline.WinSpec sig grid1.rank :=
  Pipeline.WinSpec.ofSpec (Memref.whole main_v18) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x2048x1024.size a), EltTy.bits .bf16 = 32 ∨ (Rect.block (s := S4x2048x1024) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S4x2048x1024.size a), EltTy.bits .bf16 = 32 ∨ (Rect.block (s := S4x2048x1024) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S4x2048x1024.size a), EltTy.bits .bf16 = 32 ∨ (Rect.block (s := S4x2048x1024) S1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S4x2048x1024.size a), EltTy.bits .f32 = 32 ∨ (Rect.block (s := S4x2048x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048x2048, .f32⟩
  | .hbm, ⟨22, _⟩ => ⟨S4x2048x2048, .f32⟩
  | .hbm, ⟨23, _⟩ => ⟨S_, .i1⟩
  | .hbm, ⟨24, _⟩ => ⟨S2048x2048, .i1⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .i1⟩
  | .hbm, ⟨32, _⟩ => ⟨S2048x2048, .i1⟩
  | .hbm, ⟨33, _⟩ => ⟨S2048x2048, .i1⟩
  | .hbm, ⟨34, _⟩ => ⟨S_, .f32⟩
  | .hbm, ⟨35, _⟩ => ⟨S_, .f32⟩
  | .hbm, ⟨36, _⟩ => ⟨S4x2048x2048, .i1⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S_, .f32⟩
  | .hbm, ⟨42, _⟩ => ⟨S4x2048, .f32⟩
  | .hbm, ⟨43, _⟩ => ⟨S4x2048, .f32⟩
  | .hbm, ⟨44, _⟩ => ⟨S4x2048x1, .f32⟩
  | .hbm, ⟨45, _⟩ => ⟨S4x2048x2048, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S4x2048x2048, .f32⟩
  | .hbm, ⟨52, _⟩ => ⟨S4x2048x2048, .f32⟩
  | .hbm, ⟨53, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_call0_v0 : Ref sig .tc := ⟨.hbm, 25, rfl⟩
abbrev main_call0_c : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_c_0 : Ref sig .tc := ⟨.hbm, 31, rfl⟩
abbrev main_call0_v5 : Ref sig .tc := ⟨.hbm, 32, rfl⟩
abbrev main_v16 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_cst_2 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Small.lean ====
import proofs.«403451_j89893665506083_3_alg».proof.Defs
import proofs.«403451_j89893665506083_3_alg».proof.Proof.Gen.ReferenceIdeal.Run

noncomputable section

namespace Cert.Proof.Small

open Idealize.ShloMosaic Idealize.SL.Sem

theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

-- The reference's run ends with every argument as launched.
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Small

end
-- ==== Proof.Finite.lean ====
import proofs.«403451_j89893665506083_3_alg».proof.Pre_finite_inputs
import Idealize.ShloMosaic.Lib.ReduceAll
import Idealize.ShloMosaic.Lib.Affine
import Idealize.ShloMosaic.Lib.ValueIdx
import Idealize.ShloMosaic.PureOps.Ideal

noncomputable section

namespace Cert.Pre_finite_inputs.Finite

open Idealize.ShloMosaic Cert.Pre_finite_inputs Cert.Pre_finite_inputs.Facts

instance : Subsingleton S_.Idx := ⟨fun a b => funext fun d => d.elim0⟩

theorem ofBits_inf : Ideal.ofBits .f32 0x7F800000#32 = (⊤ : EReal) := by
  simp [Ideal.ofBits, Ideal.ieee]

-- |x| < +∞ excludes both infinities, so x is a real.
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

theorem real_of_reduce {s : Shape} {axes : List (Fin s.rank)} (a : FVec Ideal s .f32)
    (hb : S_.BroadcastsInDim s (![] : Fin 0 → Fin s.rank)) (h : s.ReducesTo axes S_) (hu : 0 < S_.numel)
    (e : Host.reduce IntOp.andi (cmpf .olt (Host.absf a) (broadcastInDim s ![] hb (constant S_ .f32 0x7F800000#32)))
      (constantI S_ 1 1#1) h hu ValueIdx.ix0 = 1#1) (i : s.Idx) : ∃ r : ℝ, a i = (r : EReal) :=
  real_of_abs_lt (a i) (Host.reduce_andi_all _ _ h hu _ e i)

variable [Facts]

theorem inputs_real (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) := by
  have e := congrFun h ValueIdx.ix0
  dsimp only [fn, fn_part1, andi] at e
  simp only [IntOp.andi_eq_one] at e
  obtain ⟨⟨⟨⟨⟨⟨e0, e1⟩, e2⟩, e3⟩, e4⟩, e5⟩, e6⟩ := e
  exact ⟨real_of_reduce a0 _ _ _ e0, real_of_reduce a1 _ _ _ e1, real_of_reduce a2 _ _ _ e2, real_of_reduce a3 _ _ _ e3,
    real_of_reduce a4 _ _ _ e4, real_of_reduce a5 _ _ _ e5, real_of_reduce a6 _ _ _ e6⟩

end Cert.Pre_finite_inputs.Finite

end
-- ==== Proof.Spec.lean ====
import Idealize.ShloMosaic.PureOps.Ideal
import Idealize.ShloMosaic.PureOps.Ideal.Laws

noncomputable section

namespace Cert.Attn

open Idealize.ShloMosaic

abbrev Act : Type := Fin 4 → Fin 2048 → Fin 1024 → EReal
abbrev Wt : Type := Fin 1024 → Fin 1024 → EReal
abbrev Bias : Type := Fin 1024 → EReal

-- The scale 1/32 = 1/sqrt 1024.
def sc : EReal := Ideal.ofBits .f32 0x3D000000#32

-- x Wᵀ + b.
def proj (x : Act) (W : Wt) (b : Bias) : Act := fun bi r e => (∑ d : Fin 1024, x bi r d * W e d) + b e

-- x (W s)ᵀ + b s: the scale folded into weights and bias.
def projS (x : Act) (W : Wt) (b : Bias) : Act := fun bi r e => (∑ d : Fin 1024, x bi r d * (W e d * sc)) + b e * sc

def dotRow (q k : Act) (bi : Fin 4) (r c : Fin 2048) : EReal := ∑ e : Fin 1024, q bi r e * k bi c e

-- Column c of row r is kept when c ≤ r and is -∞ otherwise.
def masked (s : Fin 2048 → EReal) (r : Fin 2048) : Fin 2048 → EReal := fun c => if c.val ≤ r.val then s c else ⊥

-- Softmax weights taken against the row's maximum, their sum, and the weighted sum of v divided by it.
def rowMax (S : Fin 2048 → EReal) : EReal := Finset.univ.sup S
def wgt (S : Fin 2048 → EReal) (c : Fin 2048) : EReal := Ideal.exp (S c - rowMax S)
def den (S : Fin 2048 → EReal) : EReal := ∑ c : Fin 2048, wgt S c
def attnRow (S v : Fin 2048 → EReal) : EReal := Ideal.div (∑ c : Fin 2048, wgt S c * v c) (den S)

def out (v : Act) (score : Fin 4 → Fin 2048 → Fin 2048 → EReal) : Act :=
  fun bi r d => attnRow (masked (score bi r) r) (fun c => v bi c d)

-- A row's running maximum, weights' sum and weighted sum.
structure St where
  m : EReal
  l : EReal
  a : EReal

def St.init : St := ⟨⊥, 0, 0⟩

-- One tile of B columns: the maximum grows to m' and what came before is rescaled by exp (m - m').
def St.step {B : ℕ} (st : St) (s v : Fin B → EReal) : St :=
  ⟨max st.m (Finset.univ.sup s),
   Ideal.exp (st.m - max st.m (Finset.univ.sup s)) * st.l + ∑ c : Fin B, Ideal.exp (s c - max st.m (Finset.univ.sup s)),
   Ideal.exp (st.m - max st.m (Finset.univ.sup s)) * st.a + ∑ c : Fin B, Ideal.exp (s c - max st.m (Finset.univ.sup s)) * v c⟩

def tile (f : Fin 2048 → EReal) (j : Fin 4) : Fin 512 → EReal := fun cc => f ⟨512 * j.val + cc.val, by omega⟩

-- The state after tiles 0, …, n - 1 of 512 columns each.
def foldTo (S v : Fin 2048 → EReal) : ℕ → St
  | 0 => St.init
  | n + 1 => if h : n < 4 then (foldTo S v n).step (tile S ⟨n, h⟩) (tile v ⟨n, h⟩) else foldTo S v n

end Cert.Attn

end
-- ==== Proof.LibOnlineSoftmax.lean ====
import proofs.«403451_j89893665506083_3_alg».proof.Proof.Spec
import Mathlib.Data.EReal.Inv
import Mathlib.Analysis.SpecialFunctions.Exp
import Mathlib.Algebra.BigOperators.Group.Finset.Basic
import Mathlib.Algebra.Order.BigOperators.Group.Finset

noncomputable section

namespace Cert.Attn

open Idealize.ShloMosaic

def colsTo (n : ℕ) : Finset (Fin 2048) := Finset.univ.filter (fun c => c.val < 512 * n)

theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem sup_ne_top {ι : Type} (T : Finset ι) (f : ι → EReal) (h : ∀ c, f c ≠ ⊤) : T.sup f ≠ ⊤ :=
  ((Finset.sup_lt_iff bot_lt_top).mpr fun c _ => lt_top_iff_ne_top.mpr (h c)).ne

-- Over real entries, multiplying by a real commutes with a finite sum.
theorem sum_mul_real {ι : Type} (s : Finset ι) (f : ι → EReal) (hf : ∀ i, ∃ a : ℝ, f i = (a : EReal)) (t : ℝ) :
    ∑ i ∈ s, f i * (t : EReal) = (∑ i ∈ s, f i) * (t : EReal) := by
  choose g hg using hf
  simp only [hg, ← EReal.coe_mul, ← coe_sum, Finset.sum_mul]

-- A supremum of entries none of which is +∞ and one of which is not -∞ is a real number.
theorem sup_real {ι : Type} (T : Finset ι) (f : ι → EReal) (h : ∀ c, f c ≠ ⊤) {i : ι} (h0 : f i ≠ ⊥) (hi : i ∈ T) :
    ∃ M : ℝ, T.sup f = (M : EReal) :=
  ⟨_, (EReal.coe_toReal (sup_ne_top T f h) ((bot_lt_iff_ne_bot.mpr h0).trans_le (Finset.le_sup hi)).ne').symm⟩

-- exp (x - M) is a non-negative real for x < +∞, positive unless x = -∞.
theorem exp_sub_real {x : EReal} (hx : x ≠ ⊤) (M : ℝ) :
    ∃ e : ℝ, 0 ≤ e ∧ (x ≠ ⊥ → 0 < e) ∧ Ideal.exp (x - (M : EReal)) = (e : EReal) := by
  induction x using EReal.rec with
  | bot => exact ⟨0, le_rfl, fun h => absurd rfl h, by rw [EReal.bot_sub, Ideal.exp_bot, EReal.coe_zero]⟩
  | coe a => exact ⟨_, (Real.exp_pos _).le, fun _ => Real.exp_pos _, by rw [← EReal.coe_sub, Ideal.exp_coe]⟩
  | top => exact absurd rfl hx

theorem exp_sub_mul_real {x w : EReal} (hx : x ≠ ⊤) (hw : ∃ y : ℝ, w = (y : EReal)) (M : ℝ) :
    ∃ a : ℝ, Ideal.exp (x - (M : EReal)) * w = (a : EReal) := by
  obtain ⟨e, -, -, he⟩ := exp_sub_real hx M
  obtain ⟨y, rfl⟩ := hw
  exact ⟨e * y, by rw [he, EReal.coe_mul]⟩

-- exp (x - M) * exp (M - M') = exp (x - M'), at x = -∞ too.
theorem exp_rescale {x : EReal} (hx : x ≠ ⊤) (M M' : ℝ) :
    Ideal.exp (x - (M : EReal)) * ((Real.exp (M - M') : ℝ) : EReal) = Ideal.exp (x - (M' : EReal)) := by
  induction x using EReal.rec with
  | bot => rw [EReal.bot_sub, EReal.bot_sub, Ideal.exp_bot, zero_mul]
  | coe a =>
    rw [← EReal.coe_sub, ← EReal.coe_sub, Ideal.exp_coe, Ideal.exp_coe, ← EReal.coe_mul, ← Real.exp_add, sub_add_sub_cancel]
  | top => exact absurd rfl hx

-- Moving the maximum from m to a real M' rescales a sum of exp (x c - m) * w c by exp (m - M'); at m = -∞ both sides are 0.
theorem rescale_sum_mul {ι : Type} (T : Finset ι) (x w : ι → EReal) (m : EReal) (M' : ℝ) (hne : ∀ c, x c ≠ ⊤)
    (hx : ∀ c ∈ T, x c ≤ m) (hm : m ≠ ⊤) (hw : ∀ c, ∃ y : ℝ, w c = (y : EReal)) :
    Ideal.exp (m - (M' : EReal)) * ∑ c ∈ T, Ideal.exp (x c - m) * w c = ∑ c ∈ T, Ideal.exp (x c - (M' : EReal)) * w c := by
  induction m using EReal.rec with
  | bot =>
    rw [EReal.bot_sub, Ideal.exp_bot, zero_mul]
    exact (Finset.sum_eq_zero fun c hc => by rw [le_bot_iff.mp (hx c hc), EReal.bot_sub, Ideal.exp_bot, zero_mul]).symm
  | coe M =>
    rw [mul_comm (Ideal.exp _) _, ← EReal.coe_sub, Ideal.exp_coe,
      ← sum_mul_real _ _ fun c => exp_sub_mul_real (hne c) (hw c) M]
    exact Finset.sum_congr rfl fun c _ => by rw [mul_right_comm, exp_rescale (hne c)]
  | top => exact absurd rfl hm

theorem rescale_sum {ι : Type} (T : Finset ι) (x : ι → EReal) (m : EReal) (M' : ℝ) (hne : ∀ c, x c ≠ ⊤)
    (hx : ∀ c ∈ T, x c ≤ m) (hm : m ≠ ⊤) :
    Ideal.exp (m - (M' : EReal)) * ∑ c ∈ T, Ideal.exp (x c - m) = ∑ c ∈ T, Ideal.exp (x c - (M' : EReal)) := by
  simpa only [mul_one] using rescale_sum_mul T x (fun _ => 1) m M' hne hx hm fun _ => ⟨1, EReal.coe_one.symm⟩

def emb (n : ℕ) (h : n < 4) : Fin 512 → Fin 2048 := fun cc => ⟨512 * n + cc.val, by omega⟩

theorem emb_inj (n : ℕ) (h : n < 4) : Function.Injective (emb n h) := by
  intro a b hab
  have := congrArg Fin.val hab
  simp only [emb] at this
  exact Fin.ext (by omega)

theorem mem_colsTo (n : ℕ) (c : Fin 2048) : c ∈ colsTo n ↔ c.val < 512 * n := by
  simp [colsTo]

theorem colsTo_zero : colsTo 0 = ∅ := by
  ext c; simp [mem_colsTo]

theorem colsTo_succ (n : ℕ) (h : n < 4) : colsTo (n + 1) = colsTo n ∪ Finset.univ.image (emb n h) := by
  ext c
  simp only [mem_colsTo, Finset.mem_union, Finset.mem_image, Finset.mem_univ, true_and]
  refine ⟨fun hc => (lt_or_ge c.val (512 * n)).imp_right fun hge => ⟨⟨c.val - 512 * n, by omega⟩, Fin.ext ?_⟩, ?_⟩
  · simp only [emb]; omega
  · rintro (hc | ⟨cc, rfl⟩) <;> (try simp only [emb]) <;> omega

theorem colsTo_disj (n : ℕ) (h : n < 4) : Disjoint (colsTo n) (Finset.univ.image (emb n h)) := by
  rw [Finset.disjoint_left]
  intro c hc hc'
  rw [mem_colsTo] at hc
  obtain ⟨cc, -, rfl⟩ := Finset.mem_image.mp hc'
  simp only [emb] at hc; omega

-- The first 512 (n + 1) columns are the first 512 n and tile n's.
theorem sum_colsTo_succ (f : Fin 2048 → EReal) (n : ℕ) (h : n < 4) :
    ∑ c ∈ colsTo (n + 1), f c = ∑ c ∈ colsTo n, f c + ∑ cc : Fin 512, f (emb n h cc) := by
  rw [colsTo_succ n h, Finset.sum_union (colsTo_disj n h), Finset.sum_image fun a _ b _ hab => emb_inj n h hab]

theorem sup_colsTo_succ (f : Fin 2048 → EReal) (n : ℕ) (h : n < 4) :
    (colsTo (n + 1)).sup f = max ((colsTo n).sup f) (Finset.univ.sup (tile f ⟨n, h⟩)) := by
  rw [colsTo_succ n h, Finset.sup_union, Finset.sup_image]; rfl

theorem foldTo_succ (S v : Fin 2048 → EReal) (n : ℕ) (h : n < 4) :
    foldTo S v (n + 1) = (foldTo S v n).step (tile S ⟨n, h⟩) (tile v ⟨n, h⟩) := by
  rw [foldTo, dif_pos h]

-- After n ≤ 4 tiles the state holds the maximum m of the first 512 n scores and the sums of exp (S c - m) and exp (S c - m) * v c over them.
theorem foldTo_inv (S v : Fin 2048 → EReal) (hne : ∀ c, S c ≠ ⊤) (h0 : S ⟨0, by omega⟩ ≠ ⊥)
    (hv : ∀ c, ∃ x : ℝ, v c = (x : EReal)) (n : ℕ) (h4 : n ≤ 4) :
    (foldTo S v n).m = (colsTo n).sup S ∧
      (foldTo S v n).l = ∑ c ∈ colsTo n, Ideal.exp (S c - (colsTo n).sup S) ∧
      (foldTo S v n).a = ∑ c ∈ colsTo n, Ideal.exp (S c - (colsTo n).sup S) * v c := by
  induction n with
  | zero => rw [colsTo_zero]; exact ⟨rfl, rfl, rfl⟩
  | succ k ih =>
    obtain ⟨hm, hl, ha⟩ := ih (by omega)
    obtain ⟨M', hM'⟩ := sup_real (colsTo (k + 1)) S hne h0 ((mem_colsTo _ _).mpr (by show 0 < 512 * (k + 1); omega))
    have hmax := (sup_colsTo_succ S k h4).symm.trans hM'
    have hle : ∀ c ∈ colsTo k, S c ≤ (colsTo k).sup S := fun c hc => Finset.le_sup hc
    have hT := sup_ne_top (colsTo k) S hne
    rw [foldTo_succ S v k h4, hM', sum_colsTo_succ _ k h4, sum_colsTo_succ _ k h4,
      ← rescale_sum _ _ _ M' hne hle hT, ← rescale_sum_mul _ _ _ _ M' hne hle hT hv, ← hl, ← ha, ← hmax, ← hm]
    exact ⟨rfl, rfl, rfl⟩

section Causal

variable (S v : Fin 2048 → EReal) (r : Fin 2048)
  (hS : ∀ c : Fin 2048, c.val ≤ r.val → ∃ x : ℝ, S c = (x : EReal)) (hS' : ∀ c : Fin 2048, r.val < c.val → S c = ⊥)
  (hv : ∀ c, ∃ x : ℝ, v c = (x : EReal))

include hS hS' in
theorem causal_ne_top (c : Fin 2048) : S c ≠ ⊤ := by
  by_cases hc : c.val ≤ r.val
  · obtain ⟨x, hx⟩ := hS c hc; rw [hx]; exact EReal.coe_ne_top x
  · rw [hS' c (by omega)]; exact bot_ne_top

include hS in
theorem causal_zero : S ⟨0, by omega⟩ ≠ ⊥ := by
  obtain ⟨x, hx⟩ := hS ⟨0, by omega⟩ (Nat.zero_le _); rw [hx]; exact EReal.coe_ne_bot x

include hS' in
theorem causal_bot_outside (c : Fin 2048) (hc : c ∉ colsTo (r.val / 512 + 1)) : S c = ⊥ := by
  rw [mem_colsTo] at hc; exact hS' c (by omega)

include hS' in
theorem sup_colsTo_eq_rowMax : (colsTo (r.val / 512 + 1)).sup S = rowMax S := by
  refine le_antisymm (Finset.sup_mono (Finset.subset_univ _)) (Finset.sup_le fun c _ => ?_)
  by_cases hc : c ∈ colsTo (r.val / 512 + 1)
  · exact Finset.le_sup hc
  · rw [causal_bot_outside S r hS' c hc]; exact bot_le

include hS hS' in
theorem rowMax_real : ∃ M : ℝ, rowMax S = (M : EReal) :=
  sup_real _ S (causal_ne_top S r hS hS') (causal_zero S r hS) (Finset.mem_univ _)

include hS hS' in
theorem den_pos_real : ∃ L : ℝ, 0 < L ∧ den S = (L : EReal) := by
  obtain ⟨M, hM⟩ := rowMax_real S r hS hS'
  choose e he0 hepos he using fun c => exp_sub_real (causal_ne_top S r hS hS' c) M
  refine ⟨∑ c, e c, Finset.sum_pos' (fun c _ => he0 c) ⟨_, Finset.mem_univ _, hepos _ (causal_zero S r hS)⟩, ?_⟩
  rw [den, coe_sum]
  exact Finset.sum_congr rfl fun c _ => by rw [wgt, hM, he c]

include hS hS' hv in
-- The weights' sum is a positive real L, so both sides are the weighted sum times 1 / L.
theorem attnRow_eq_sum_div : attnRow S v = ∑ c : Fin 2048, Ideal.div (wgt S c) (den S) * v c := by
  obtain ⟨M, hM⟩ := rowMax_real S r hS hS'
  obtain ⟨L, hL, hden⟩ := den_pos_real S r hS hS'
  rw [attnRow, hden, Ideal.div_coe hL.ne', ← sum_mul_real _ _ fun c =>
    by rw [wgt, hM]; exact exp_sub_mul_real (causal_ne_top S r hS hS' c) (hv c) M]
  exact Finset.sum_congr rfl fun c _ => by rw [Ideal.div_coe hL.ne', mul_right_comm]

include hS hS' hv in
-- Columns beyond the diagonal's tile are -∞ and weigh 0, so after that tile the state's sums are the whole row's.
theorem online_eq :
    Ideal.div (foldTo S v (r.val / 512 + 1)).a (foldTo S v (r.val / 512 + 1)).l = attnRow S v := by
  obtain ⟨-, hl, ha⟩ := foldTo_inv S v (causal_ne_top S r hS hS') (causal_zero S r hS) hv (r.val / 512 + 1)
    (by have := r.isLt; omega)
  rw [hl, ha, sup_colsTo_eq_rowMax S r hS', attnRow, den]
  refine congrArg₂ Ideal.div ?_ ?_ <;> refine Finset.sum_subset (Finset.subset_univ _) fun c _ hc => ?_ <;>
    simp only [causal_bot_outside S r hS' c hc, EReal.bot_sub, Ideal.exp_bot, zero_mul]

end Causal

end Cert.Attn

end
-- ==== Proof.RefScores.lean ====
import proofs.«403451_j89893665506083_3_alg».proof.Proof.Gen.ReferenceIdeal.Read
import proofs.«403451_j89893665506083_3_alg».proof.Proof.Spec
import Idealize.ShloMosaic.Lib.StableHlo.Predicate

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

def actOf (x : A3) : Cert.Attn.Act := fun bi r d => x (ix3 bi r d)
def wtOf (w : A2) : Cert.Attn.Wt := fun e d => w (ix2 e d)
def biasOf (b : A1) : Cert.Attn.Bias := fun e => b (ix1 e)

variable (x0 : A3) (x1 : A2) (x2 : A1) (x3 : A2) (x4 : A1) (x5 : A2) (x6 : A1) (bi : Fin 4) (r c : Fin 2048)

theorem lidx_v0_ix (e k : Fin 1024) : Read.lidx_main_v0 (ix3 bi r e) k = ix3 bi r k := eq_ix3 _
theorem ridx_v0_ix (e k : Fin 1024) : Read.ridx_main_v0 (ix3 bi r e) k = ix2 e k := eq_ix2 _
theorem idx_v1_v2_ix (e : Fin 1024) : Read.idx_main_v1 (Read.idx_main_v2 (ix3 bi r e)) = ix1 e := eq_ix1 _

-- Each linear layer, read at (bi, r, e), is the projection x Wᵀ + b.
theorem v3_apply (e : Fin 1024) :
    Read.val_main_v3 (F := Ideal) x0 x1 x2 (ix3 bi r e) = Cert.Attn.proj (actOf x0) (wtOf x1) (biasOf x2) bi r e := by
  rw [Read.val_main_v3_apply, Read.val_main_v0_apply, Read.val_main_v2_apply, Read.val_main_v1_apply]
  simp only [lidx_v0_ix, ridx_v0_ix, idx_v1_v2_ix, Ideal.addf_def]
  rfl

theorem v7_eq_v3 : Read.val_main_v7 (F := Ideal) x0 x3 x4 = Read.val_main_v3 (F := Ideal) x0 x3 x4 := rfl
theorem v11_eq_v3 : Read.val_main_v11 (F := Ideal) x0 x5 x6 = Read.val_main_v3 (F := Ideal) x0 x5 x6 := rfl

theorem lidx_v12_ix (k : Fin 1024) : Read.lidx_main_v12 (ix3 bi r c) k = ix3 bi r k := eq_ix3 _
theorem ridx_v12_ix (k : Fin 1024) : Read.ridx_main_v12 (ix3 bi r c) k = ix3 bi c k := eq_ix3 _

theorem v12_apply :
    Read.val_main_v12 (F := Ideal) x0 x1 x2 x3 x4 (ix3 bi r c)
      = Cert.Attn.dotRow (Cert.Attn.proj (actOf x0) (wtOf x1) (biasOf x2)) (Cert.Attn.proj (actOf x0) (wtOf x3) (biasOf x4)) bi r c := by
  rw [Read.val_main_v12_apply]
  simp only [lidx_v12_ix, ridx_v12_ix, v7_eq_v3, v3_apply]
  rfl

theorem v14_apply :
    Read.val_main_v14 (F := Ideal) x0 x1 x2 x3 x4 (ix3 bi r c)
      = Cert.Attn.dotRow (Cert.Attn.proj (actOf x0) (wtOf x1) (biasOf x2)) (Cert.Attn.proj (actOf x0) (wtOf x3) (biasOf x4)) bi r c * Cert.Attn.sc := by
  rw [Read.val_main_v14_apply, Read.val_main_v13_apply, Read.val_main_cst_apply, v12_apply]
  rfl

-- A position below 2048 is read back unchanged from its 32-bit word.
theorem toNat_fin (i : Fin 2048) : (BitVec.ofNat 32 i.val).toNat = i.val := by
  rw [BitVec.toNat_ofNat]; exact Nat.mod_eq_of_lt (by have := i.isLt; omega)

-- The mask bit at (r, c) is set exactly when c ≤ r.
theorem v16_apply :
    Read.val_main_v16 (F := Ideal) (ix2 r c) = if c.val ≤ r.val then 1#1 else 0#1 := by
  rw [Read.val_main_v16_apply, Read.val_main_v15_apply, Read.val_main_c_apply, Read.val_main_call0_v5_apply,
    Read.val_main_call0_c_0_apply, Read.val_main_call0_v4_apply, Read.val_main_call0_v2_apply, Read.val_main_call0_v0_apply,
    Read.val_main_call0_v1_apply, Read.val_main_call0_c_apply, Read.val_main_call0_v3_apply]
  show Scalar.select (IntOp.cmpi .sge (IntOp.addi (BitVec.ofNat 32 r.val) 0#32) (BitVec.ofNat 32 c.val)) 1#1 0#1 = _
  have hiff := Predicate.sge_iff_toNat (a := BitVec.ofNat 32 r.val) (b := BitVec.ofNat 32 c.val)
    (by rw [toNat_fin]; have := r.isLt; omega) (by rw [toNat_fin]; have := c.isLt; omega)
  rw [toNat_fin, toNat_fin] at hiff
  rw [show IntOp.addi (BitVec.ofNat 32 r.val) 0#32 = BitVec.ofNat 32 r.val from BitVec.add_zero _]
  by_cases h : c.val ≤ r.val
  · rw [if_pos h, hiff.mpr h, select_one]
  · rw [if_neg h, eq_zero_of_ne_one (fun e => h (hiff.mp e)), select_zero]

theorem idx_call1_v1_ix : Read.idx_main_call1_v1 (ix3 bi r c) = ix2 r c := eq_ix2 _

theorem ofBits_negInf : Ideal.ofBits .f32 0xFF800000#32 = (⊥ : EReal) := by simp [Ideal.ofBits, Ideal.ieee]

-- The select keeps the scaled score where c ≤ r and writes -∞ elsewhere.
theorem v17_apply :
    Read.val_main_v17 (F := Ideal) x0 x1 x2 x3 x4 (ix3 bi r c)
      = Cert.Attn.masked (fun cc => Cert.Attn.dotRow (Cert.Attn.proj (actOf x0) (wtOf x1) (biasOf x2))
          (Cert.Attn.proj (actOf x0) (wtOf x3) (biasOf x4)) bi r cc * Cert.Attn.sc) r c := by
  rw [Read.val_main_v17_apply, Read.val_main_call1_v1_apply, idx_call1_v1_ix, v16_apply, v14_apply,
    Read.val_main_call1_v2_apply, Read.val_main_call1_v0_apply, Read.val_main_cst_0_apply]
  unfold Cert.Attn.masked
  by_cases h : c.val ≤ r.val
  · rw [if_pos h, if_pos h, select_one]
  · rw [if_neg h, if_neg h, select_zero]; exact ofBits_negInf

end Cert.ReferenceIdeal.RefValue

end
-- ==== Proof.RefSoftmax.lean ====
import proofs.«403451_j89893665506083_3_alg».proof.Proof.RefScores
import Idealize.ShloMosaic.PureOps.Reduce

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

theorem lift_ix3 (h : S4x2048x2048.Reduces [2] S4x2048) (bi : Fin 4) (r : Fin 2048) (k : Fin (S4x2048x2048.size 2)) :
    h.lift (ix2 bi r) k = ix3 bi r (⟨k.val, k.isLt⟩ : Fin 2048) := eq_ix3 _

variable (x0 : A3) (x1 : A2) (x2 : A1) (x3 : A2) (x4 : A1) (bi : Fin 4) (r c : Fin 2048)

def rowS : Fin 2048 → EReal :=
  fun c => Read.val_main_v17 (F := Ideal) x0 x1 x2 x3 x4 (ix3 bi r c)

-- Folding max from -∞ along a row gives the row's supremum.
theorem v18_apply :
    Read.val_main_v18 (F := Ideal) x0 x1 x2 x3 x4 (ix2 bi r) = Cert.Attn.rowMax (rowS x0 x1 x2 x3 x4 bi r) := by
  unfold Read.val_main_v18 rowS
  generalize Read.val_main_v17 (F := Ideal) x0 x1 x2 x3 x4 = y
  have h : S4x2048x2048.Reduces [2] S4x2048 := by decide
  refine (Host.reduce_eq_fold_single (FloatOps.maximumf (F := Ideal) (φ := .f32)) (y : S4x2048x2048.Idx → Ideal .f32)
    (Read.val_main_cst_1 (F := Ideal)) reducesTo_S4x2048x2048_S4x2048_d2 h h_S_ (ix2 bi r)).trans ?_
  have hf : (y ∘ h.lift (ix2 bi r)) = fun k : Fin 2048 => y (ix3 bi r k) := funext fun k => congrArg y (lift_ix3 h bi r k)
  have hi : Read.val_main_cst_1 (F := Ideal) (Shape.Idx.first h_S_) = (⊥ : EReal) := ofBits_negInf
  rw [hi]
  show (Finset.univ : Finset (Fin 2048)).fold max ⊥ (y ∘ h.lift (ix2 bi r)) = _
  rw [hf]
  rfl

theorem idx_v21_v22_ix : Read.idx_main_v21 (Read.idx_main_v22 (ix3 bi r c)) = ix2 bi r := eq_ix2 _

theorem v22_apply :
    Read.val_main_v22 (F := Ideal) x0 x1 x2 x3 x4 (ix3 bi r c) = Cert.Attn.rowMax (rowS x0 x1 x2 x3 x4 bi r) := by
  rw [Read.val_main_v22_apply, Read.val_main_v21_apply, idx_v21_v22_ix, Read.val_main_v20_apply, Read.val_main_v19_apply,
    Read.val_main_cst_2_apply, v18_apply]
  show max (Ideal.ofBits .f32 0xFF800000#32) _ = _
  rw [ofBits_negInf]
  exact max_bot_left _

theorem v24_apply :
    Read.val_main_v24 (F := Ideal) x0 x1 x2 x3 x4 (ix3 bi r c) = Cert.Attn.wgt (rowS x0 x1 x2 x3 x4 bi r) c := by
  rw [Read.val_main_v24_apply, Read.val_main_v23_apply, v22_apply]
  rfl

theorem idx_v25_ix (r k : Fin 2048) : Read.idx_main_v25 (ix2 bi r) k = ix3 bi r k := eq_ix3 _

theorem v25_apply :
    Read.val_main_v25 (F := Ideal) x0 x1 x2 x3 x4 (ix2 bi r) = Cert.Attn.den (rowS x0 x1 x2 x3 x4 bi r) := by
  rw [Read.val_main_v25_apply, Read.val_main_cst_3_apply]
  simp only [idx_v25_ix, v24_apply, Ideal.ofBits_def, Ideal.ofBits_zero_f32, zero_add]
  rfl

theorem idx_v26_v27_ix : Read.idx_main_v26 (Read.idx_main_v27 (ix3 bi r c)) = ix2 bi r := eq_ix2 _

-- The reference normalises every weight by the row's sum before the last product.
theorem v28_apply :
    Read.val_main_v28 (F := Ideal) x0 x1 x2 x3 x4 (ix3 bi r c)
      = Ideal.div (Cert.Attn.wgt (rowS x0 x1 x2 x3 x4 bi r) c) (Cert.Attn.den (rowS x0 x1 x2 x3 x4 bi r)) := by
  rw [Read.val_main_v28_apply, v24_apply, Read.val_main_v27_apply, Read.val_main_v26_apply, idx_v26_v27_ix, v25_apply]
  rfl

theorem rowS_eq :
    rowS x0 x1 x2 x3 x4 bi r
      = Cert.Attn.masked (fun cc => Cert.Attn.dotRow (Cert.Attn.proj (actOf x0) (wtOf x1) (biasOf x2))
          (Cert.Attn.proj (actOf x0) (wtOf x3) (biasOf x4)) bi r cc * Cert.Attn.sc) r :=
  funext fun c => v17_apply x0 x1 x2 x3 x4 bi r c

end Cert.ReferenceIdeal.RefValue

end
-- ==== Proof.RealArr.lean ====
import proofs.«403451_j89893665506083_3_alg».proof.Proof.Spec

noncomputable section

namespace Cert.Attn.RealArr

open Idealize.ShloMosaic Cert.Attn

-- Sums, products and finite sums of reals are real, hence so are the projections and inner products of real arrays.
theorem real_add {x y : EReal} (hx : ∃ a : ℝ, x = (a : EReal)) (hy : ∃ b : ℝ, y = (b : EReal)) : ∃ s : ℝ, x + y = (s : EReal) := by
  obtain ⟨a, rfl⟩ := hx; obtain ⟨b, rfl⟩ := hy; exact ⟨a + b, (EReal.coe_add a b).symm⟩

theorem real_mul {x y : EReal} (hx : ∃ a : ℝ, x = (a : EReal)) (hy : ∃ b : ℝ, y = (b : EReal)) : ∃ p : ℝ, x * y = (p : EReal) := by
  obtain ⟨a, rfl⟩ := hx; obtain ⟨b, rfl⟩ := hy; exact ⟨a * b, (EReal.coe_mul a b).symm⟩

theorem real_sum {ι : Type} (s : Finset ι) (f : ι → EReal) (h : ∀ i, ∃ a : ℝ, f i = (a : EReal)) : ∃ t : ℝ, ∑ i ∈ s, f i = (t : EReal) := by
  classical
  induction s using Finset.induction_on with
  | empty => exact ⟨0, by simp⟩
  | insert a s ha ih => rw [Finset.sum_insert ha]; exact real_add (h a) ih

theorem sc_real : ∃ a : ℝ, sc = (a : EReal) := by
  unfold sc
  simp only [Ideal.ofBits, Ideal.ieee]
  rw [if_neg (by decide), if_neg (by decide)]
  exact ⟨_, rfl⟩

theorem proj_real (x : Act) (W : Wt) (b : Bias)
    (hx : ∀ bi r d, ∃ a : ℝ, x bi r d = (a : EReal)) (hW : ∀ e d, ∃ a : ℝ, W e d = (a : EReal)) (hb : ∀ e, ∃ a : ℝ, b e = (a : EReal))
    (bi : Fin 4) (r : Fin 2048) (e : Fin 1024) : ∃ a : ℝ, proj x W b bi r e = (a : EReal) :=
  real_add (real_sum _ _ fun d => real_mul (hx bi r d) (hW e d)) (hb e)

theorem projS_real (x : Act) (W : Wt) (b : Bias)
    (hx : ∀ bi r d, ∃ a : ℝ, x bi r d = (a : EReal)) (hW : ∀ e d, ∃ a : ℝ, W e d = (a : EReal)) (hb : ∀ e, ∃ a : ℝ, b e = (a : EReal))
    (bi : Fin 4) (r : Fin 2048) (e : Fin 1024) : ∃ a : ℝ, projS x W b bi r e = (a : EReal) :=
  real_add (real_sum _ _ fun d => real_mul (hx bi r d) (real_mul (hW e d) sc_real)) (real_mul (hb e) sc_real)

theorem dotRow_real (q k : Act) (hq : ∀ bi r e, ∃ a : ℝ, q bi r e = (a : EReal)) (hk : ∀ bi r e, ∃ a : ℝ, k bi r e = (a : EReal))
    (bi : Fin 4) (r c : Fin 2048) : ∃ a : ℝ, dotRow q k bi r c = (a : EReal) :=
  real_sum _ _ fun e => real_mul (hq bi r e) (hk bi c e)

end Cert.Attn.RealArr

end
-- ==== Proof.RefValue.lean ====
import proofs.«403451_j89893665506083_3_alg».proof.Proof.Gen.ReferenceIdeal.Run
import proofs.«403451_j89893665506083_3_alg».proof.Proof.Gen.ReferenceIdeal.Read
import proofs.«403451_j89893665506083_3_alg».proof.Proof.Spec
import proofs.«403451_j89893665506083_3_alg».proof.Proof.LibOnlineSoftmax
import proofs.«403451_j89893665506083_3_alg».proof.Proof.RefSoftmax
import proofs.«403451_j89893665506083_3_alg».proof.Proof.RealArr

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

open Cert.Attn.RealArr (real_mul sc_real)

alias proj_real := Cert.Attn.RealArr.proj_real
alias dotRow_real := Cert.Attn.RealArr.dotRow_real

theorem lidx_v29_ix (bi : Fin 4) (r : Fin 2048) (d : Fin 1024) (k : Fin 2048) : Read.lidx_main_v29 (ix3 bi r d) k = ix3 bi r k := eq_ix3 _
theorem ridx_v29_ix (bi : Fin 4) (r : Fin 2048) (d : Fin 1024) (k : Fin 2048) : Read.ridx_main_v29 (ix3 bi r d) k = ix3 bi k d := eq_ix3 _

theorem v29_apply (x0 : A3) (x1 : A2) (x2 : A1) (x3 : A2) (x4 : A1) (x5 : A2) (x6 : A1) (bi : Fin 4) (r : Fin 2048) (d : Fin 1024) :
    Read.val_main_v29 (F := Ideal) x0 x1 x2 x3 x4 x5 x6 (ix3 bi r d)
      = ∑ c : Fin 2048, Ideal.div (Cert.Attn.wgt (rowS x0 x1 x2 x3 x4 bi r) c) (Cert.Attn.den (rowS x0 x1 x2 x3 x4 bi r))
          * Cert.Attn.proj (actOf x0) (wtOf x5) (biasOf x6) bi c d := by
  rw [Read.val_main_v29_apply]
  simp only [lidx_v29_ix, ridx_v29_ix, v28_apply, v11_eq_v3, v3_apply]

variable (m : (ℓ : Loc nD τ sig) → Buf (Elt Ideal) ℓ) (c : Dev nD)

def argX : Cert.Attn.Act := fun bi r d => m ((c.tc : Thread nD τ).loc main_arg0) (ix3 bi r d)
def argWq : Cert.Attn.Wt := fun e d => m ((c.tc : Thread nD τ).loc main_arg1) (ix2 e d)
def argBq : Cert.Attn.Bias := fun e => m ((c.tc : Thread nD τ).loc main_arg2) (ix1 e)
def argWk : Cert.Attn.Wt := fun e d => m ((c.tc : Thread nD τ).loc main_arg3) (ix2 e d)
def argBk : Cert.Attn.Bias := fun e => m ((c.tc : Thread nD τ).loc main_arg4) (ix1 e)
def argWv : Cert.Attn.Wt := fun e d => m ((c.tc : Thread nD τ).loc main_arg5) (ix2 e d)
def argBv : Cert.Attn.Bias := fun e => m ((c.tc : Thread nD τ).loc main_arg6) (ix1 e)

def projQ : Cert.Attn.Act := Cert.Attn.proj (argX m c) (argWq m c) (argBq m c)
def projK : Cert.Attn.Act := Cert.Attn.proj (argX m c) (argWk m c) (argBk m c)
def projV : Cert.Attn.Act := Cert.Attn.proj (argX m c) (argWv m c) (argBv m c)

-- Over real inputs the reference's result is the attention output of the three projections under the scaled scores.
theorem ref_apply
    (h0 : ∀ i, ∃ x : ℝ, m ((c.tc : Thread nD τ).loc main_arg0) i = (x : EReal))
    (h1 : ∀ i, ∃ x : ℝ, m ((c.tc : Thread nD τ).loc main_arg1) i = (x : EReal))
    (h2 : ∀ i, ∃ x : ℝ, m ((c.tc : Thread nD τ).loc main_arg2) i = (x : EReal))
    (h3 : ∀ i, ∃ x : ℝ, m ((c.tc : Thread nD τ).loc main_arg3) i = (x : EReal))
    (h4 : ∀ i, ∃ x : ℝ, m ((c.tc : Thread nD τ).loc main_arg4) i = (x : EReal))
    (h5 : ∀ i, ∃ x : ℝ, m ((c.tc : Thread nD τ).loc main_arg5) i = (x : EReal))
    (h6 : ∀ i, ∃ x : ℝ, m ((c.tc : Thread nD τ).loc main_arg6) i = (x : EReal))
    (bi : Fin 4) (r : Fin 2048) (d : Fin 1024) :
    Cert.ReferenceIdeal.Value.res_out0 m c (ix3 bi r d)
      = Cert.Attn.out (projV m c) (fun bi r cc => Cert.Attn.dotRow (projQ m c) (projK m c) bi r cc * Cert.Attn.sc) bi r d := by
  have hX : ∀ bi r d, ∃ a : ℝ, argX m c bi r d = (a : EReal) := fun bi r d => h0 (ix3 bi r d)
  have hQ := proj_real (argX m c) (argWq m c) (argBq m c) hX (fun e d => h1 (ix2 e d)) (fun e => h2 (ix1 e))
  have hK := proj_real (argX m c) (argWk m c) (argBk m c) hX (fun e d => h3 (ix2 e d)) (fun e => h4 (ix1 e))
  have hV := proj_real (argX m c) (argWv m c) (argBv m c) hX (fun e d => h5 (ix2 e d)) (fun e => h6 (ix1 e))
  show Cert.ReferenceIdeal.Value.res_main_v29 m c (ix3 bi r d) = _
  rw [Read.val_main_v29_eq, v29_apply, rowS_eq]
  refine (Cert.Attn.attnRow_eq_sum_div
    (Cert.Attn.masked (fun cc => Cert.Attn.dotRow (projQ m c) (projK m c) bi r cc * Cert.Attn.sc) r)
    (fun cc => projV m c bi cc d) r ?_ ?_ ?_).symm
  · intro cc hcc
    unfold Cert.Attn.masked
    rw [if_pos hcc]
    exact real_mul (dotRow_real _ _ hQ hK bi r cc) sc_real
  · intro cc hcc
    unfold Cert.Attn.masked
    exact if_neg (by omega)
  · intro cc
    exact hV bi cc d

end Cert.ReferenceIdeal.RefValue

end
-- ==== Proof.Tables.lean ====
import proofs.«403451_j89893665506083_3_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

def pf₀ : pre1.Contents (Elt F) := fun
  | ⟨0, _⟩ => fun i => lit0 (S10.rowMajor i)
  | ⟨1, _⟩ => fun i => lit1 (S10.rowMajor i)
  | ⟨_ + 2, h⟩ => absurd h (by simp)

theorem after_hostOps0_main_c (W : Valuation τ sig (Elt F)) :
    StableHlo.after hostOps0 W (Proc.devRef .tc main_c) = (pf₀ (F := F)) 0 := by
  unfold hostOps0
  open StableHlo in after_results
  rfl

theorem after_hostOps0_main_c_0 (W : Valuation τ sig (Elt F)) :
    StableHlo.after hostOps0 W (Proc.devRef .tc main_c_0) = (pf₀ (F := F)) 1 := by
  unfold hostOps0
  open StableHlo in after_results
  rfl

theorem qi_word (i : grid1.Coords) : (pf₀ (F := F)).atD 0 (k1_off1 i) = lit0 ⟨(i 1).val, (i 1).isLt⟩ := by
  rw [k1_off1_eq]
  unfold Pipeline.Prefetch.Contents.atD
  rw [dif_pos (fun a => by fin_cases a; exact (i 1).isLt)]
  exact congrArg lit0 (Fin.ext (Shape.rowMajor_val_one _))

theorem ki_word (i : grid1.Coords) : (pf₀ (F := F)).atD 1 (k1_off1 i) = lit1 ⟨(i 1).val, (i 1).isLt⟩ := by
  rw [k1_off1_eq]
  unfold Pipeline.Prefetch.Contents.atD
  rw [dif_pos (fun a => by fin_cases a; exact (i 1).isLt)]
  exact congrArg lit1 (Fin.ext (Shape.rowMajor_val_one _))

theorem lit0_lt : ∀ x : Fin 10, (lit0 x).toNat < 4 := by decide
theorem lit1_lt : ∀ x : Fin 10, (lit1 x).toNat < 4 := by decide

theorem blk_inb (i0 : Fin 4) (v : BitVec 32) (hv : v.toNat < 4) :
    ∀ a : Fin 3, ((![(BitVec.ofNat 32 i0.val).toNat, v.toNat, (0#32).toNat] : Fin 3 → Nat) a + 1) * S1x512x1024.size a ≤ S4x2048x1024.size a := by
  intro a
  have h0 : i0.val < 4 := i0.isLt
  fin_cases a
  · show ((BitVec.ofNat 32 i0.val).toNat + 1) * 1 ≤ 4
    rw [BitVec.toNat_ofNat, Nat.mod_eq_of_lt (by omega)]; omega
  · show (v.toNat + 1) * 512 ≤ 2048
    omega
  · show (0 + 1) * 1024 ≤ 1024
    omega

theorem ok1_pf₀ : ok1 (F := F) pf₀ := by
  unfold ok1
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · exact blk_inb (i 0) _ (lit0_lt _)
  · exact blk_inb (i 0) _ (lit1_lt _)
  · exact blk_inb (i 0) _ (lit1_lt _)
  · exact blk_inb (i 0) _ (lit0_lt _)

abbrev adm : (p : Fin 2) → (pcfgs (F := F) p).Adm
  | ⟨0, _⟩ => cfg0.toPCfg_adm
  | ⟨1, _⟩ => ⟨pf₀, ok1_pf₀⟩
  | ⟨_ + 2, h⟩ => absurd h (by simp)

theorem adm_one_val : (adm (F := F) 1).1 = pf₀ := rfl

theorem at_word0 (i : grid1.Coords) :
    (pf₀ (F := F)).at 0 (Rect.unit (s := S10) ![(Scalar.indexCast (BitVec.ofNat 32 (i 1).val)).toNat] S1.size (k1_off1_inb i)) numel1_S1
      = lit0 ⟨(i 1).val, (i 1).isLt⟩ := by
  show lit0 (S10.rowMajor _) = _
  refine congrArg lit0 (Fin.ext ?_)
  refine (Shape.rowMajor_val_one _).trans ?_
  show k1_off1 i 0 + 1 * 0 = (i 1).val
  rw [k1_off1_eq]; rfl

theorem tr3_closed (i : grid1.Coords) :
    cc1_transform_3 k1_off1_inb numel1_S1 (pf₀ (F := F)) i
      = ![(BitVec.ofNat 32 (i 0).val).toNat, (lit0 ⟨(i 1).val, (i 1).isLt⟩).toNat, (0#32).toNat] := by
  unfold cc1_transform_3
  dsimp only
  rw [at_word0]

def idx3c (t : Fin grid1.N) : Fin 3 → Nat :=
  ![(BitVec.ofNat 32 (grid1.coords t 0).val).toNat, (lit0 ⟨(grid1.coords t 1).val, (grid1.coords t 1).isLt⟩).toNat, (0#32).toNat]

theorem lit_le : ∀ j : Fin 10, (lit1 j).slt (lit0 j) = true ∨ lit1 j = lit0 j := by decide

theorem lit1_first : ∀ h : 0 < grid1.N, lit1 ⟨(grid1.coords ⟨0, h⟩ 1).val, (grid1.coords ⟨0, h⟩ 1).isLt⟩ = 0#32 := by decide

theorem flush_closed : ∀ t : Fin grid1.N,
    lit1 ⟨(grid1.coords t 1).val, (grid1.coords t 1).isLt⟩ ≠ lit0 ⟨(grid1.coords t 1).val, (grid1.coords t 1).isLt⟩ →
      t.val + 1 ≠ grid1.N ∧ ∀ h : t.val + 1 < grid1.N, idx3c ⟨t.val + 1, h⟩ = idx3c t := by decide

end Cert.KernelIdeal.Hand

end
-- ==== Proof.R0Body.lean ====
import proofs.«403451_j89893665506083_3_alg».proof.Proof.Gen.KernelIdeal.Launch
import proofs.«403451_j89893665506083_3_alg».proof.Proof.Gen.KernelIdeal.Skeleton
import proofs.«403451_j89893665506083_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_7 (x0 : Vec F S512x1024 .f32) (x1 : Vec F S1024x1024 .bf16) (x4 : Vec F S1x1024 .f32) : Vec F S512x1024 .bf16 :=
  View.canon [⟨r0_0, k0_pay2 (View.ld x0 r0_0) (View.ld x1 r0_1) (View.ld x4 r0_2)⟩]

def out0_8 (x0 : Vec F S512x1024 .f32) (x2 : Vec F S1024x1024 .bf16) (x5 : Vec F S1x1024 .f32) : Vec F S512x1024 .bf16 :=
  View.canon [⟨r0_0, k0_pay3 (View.ld x0 r0_0) (View.ld x2 r0_1) (View.ld x5 r0_2)⟩]

def out0_9 (x0 : Vec F S512x1024 .f32) (x3 : Vec F S1024x1024 .bf16) (x6 : Vec F S1x1024 .f32) : Vec F S512x1024 .bf16 :=
  View.canon [⟨r0_0, k0_pay4 (View.ld x0 r0_0) (View.ld x3 r0_1) (View.ld x6 r0_2)⟩]

theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in

theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  iframe
  isplitl [H7]; · iexists _; iexact H7
  isplitl [H8]; · iexists _; iexact H8
  isplitl [H9]; · iexists _; iexact H9
  iintro ⟨H0, H1, H2, H3, H4, H5, H6, H7, H8, H9⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.R1Body.lean ====
import proofs.«403451_j89893665506083_3_alg».proof.Proof.Gen.KernelIdeal.Skeleton
import proofs.«403451_j89893665506083_3_alg».proof.Proof.Gen.KernelIdeal.Launch
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev qiW (pf : pre1.Contents (Elt F)) (i : grid1.Coords) : Elt F .i32 := pf.atD 0 (k1_off1 i)

abbrev kiW (pf : pre1.Contents (Elt F)) (i : grid1.Coords) : Elt F .i32 := pf.atD 1 (k1_off1 i)

def initM : Vec F S512x1 .f32 := k1_pay1

def initL : Vec F S512x1 .f32 := k1_pay2

def initAcc : Vec F S512x1024 .f32 := k1_pay3

def offM (xq xk : Vec F S1x512x1024 .bf16) (sm : Vec F S512x1 .f32) : Vec F S512x1 .f32 :=
  k1_pay4 (k1_pay9 xq xk sm)

def offL (xq xk : Vec F S1x512x1024 .bf16) (sm sl : Vec F S512x1 .f32) : Vec F S512x1 .f32 :=
  k1_pay12 xq xk sm sl

def offAcc (xq xk xv : Vec F S1x512x1024 .bf16) (sm : Vec F S512x1 .f32) (sa : Vec F S512x1024 .f32) : Vec F S512x1024 .f32 :=
  k1_pay13 xq xk sm sa xv

def diagM (qi ki : Elt F .i32) (xq xk : Vec F S1x512x1024 .bf16) (sm : Vec F S512x1 .f32) : Vec F S512x1 .f32 :=
  k1_pay6 (k1_pay15 qi ki xq xk sm)

def diagL (qi ki : Elt F .i32) (xq xk : Vec F S1x512x1024 .bf16) (sm sl : Vec F S512x1 .f32) : Vec F S512x1 .f32 :=
  k1_pay18 qi ki xq xk sm sl

def diagAcc (qi ki : Elt F .i32) (xq xk xv : Vec F S1x512x1024 .bf16) (sm : Vec F S512x1 .f32) (sa : Vec F S512x1024 .f32) : Vec F S512x1024 .f32 :=
  k1_pay5 (k1_pay19 qi ki xq xk sm sa) (k1_pay20 qi ki xq xk sm) xv

def diagOut (qi ki : Elt F .i32) (xq xk xv : Vec F S1x512x1024 .bf16) (sm sl : Vec F S512x1 .f32) (sa : Vec F S512x1024 .f32) : Vec F S1x512x1024 .f32 :=
  k1_pay7 (diagAcc qi ki xq xk xv sm sa) (diagL qi ki xq xk sm sl)

abbrev newM_A (xq xk : Vec F S1x512x1024 .bf16) : Vec F S512x1 .f32 := offM xq xk initM
abbrev newL_A (xq xk : Vec F S1x512x1024 .bf16) : Vec F S512x1 .f32 := offL xq xk initM initL
abbrev newAcc_A (xq xk xv : Vec F S1x512x1024 .bf16) : Vec F S512x1024 .f32 := offAcc xq xk xv initM initAcc

abbrev newM_B (qi ki : Elt F .i32) (xq xk : Vec F S1x512x1024 .bf16) : Vec F S512x1 .f32 := diagM qi ki xq xk initM
abbrev newL_B (qi ki : Elt F .i32) (xq xk : Vec F S1x512x1024 .bf16) : Vec F S512x1 .f32 := diagL qi ki xq xk initM initL
abbrev newAcc_B (qi ki : Elt F .i32) (xq xk xv : Vec F S1x512x1024 .bf16) : Vec F S512x1024 .f32 := diagAcc qi ki xq xk xv initM initAcc
abbrev outBlk_B (qi ki : Elt F .i32) (xq xk xv : Vec F S1x512x1024 .bf16) : Vec F S1x512x1024 .f32 := diagOut qi ki xq xk xv initM initL initAcc

abbrev newM_C (xq xk : Vec F S1x512x1024 .bf16) (sm : Vec F S512x1 .f32) : Vec F S512x1 .f32 := offM xq xk sm
abbrev newL_C (xq xk : Vec F S1x512x1024 .bf16) (sm sl : Vec F S512x1 .f32) : Vec F S512x1 .f32 := offL xq xk sm sl
abbrev newAcc_C (xq xk xv : Vec F S1x512x1024 .bf16) (sm : Vec F S512x1 .f32) (sa : Vec F S512x1024 .f32) : Vec F S512x1024 .f32 := offAcc xq xk xv sm sa

abbrev newM_D (qi ki : Elt F .i32) (xq xk : Vec F S1x512x1024 .bf16) (sm : Vec F S512x1 .f32) : Vec F S512x1 .f32 := diagM qi ki xq xk sm
abbrev newL_D (qi ki : Elt F .i32) (xq xk : Vec F S1x512x1024 .bf16) (sm sl : Vec F S512x1 .f32) : Vec F S512x1 .f32 := diagL qi ki xq xk sm sl
abbrev newAcc_D (qi ki : Elt F .i32) (xq xk xv : Vec F S1x512x1024 .bf16) (sm : Vec F S512x1 .f32) (sa : Vec F S512x1024 .f32) : Vec F S512x1024 .f32 := diagAcc qi ki xq xk xv sm sa
abbrev outBlk_D (qi ki : Elt F .i32) (xq xk xv : Vec F S1x512x1024 .bf16) (sm sl : Vec F S512x1 .f32) (sa : Vec F S512x1024 .f32) : Vec F S1x512x1024 .f32 := diagOut qi ki xq xk xv sm sl sa

abbrev tbM1_0 : Memref sig .tc .smem S10 .i32 := Memref.whole main_c
abbrev tbM1_1 : Memref sig .tc .smem S10 .i32 := Memref.whole main_c_0

abbrev TbBuf1 (c : Dev nD) {S : Shape} {e : EltTy} (M : Memref sig .tc .smem S e) : Type := Buf (Elt F) (M.view.loc (c : Thread nD τ))
abbrev tbPt1 (c : Dev nD) (q : PosShare TreeShare) {S : Shape} {e : EltTy} (M : Memref sig .tc .smem S e) (f : TbBuf1 (F := F) c M) : sProp 𝕄 :=
  M.view.loc (c : Thread nD τ) ↦{q} f

theorem prefHeld1_eq (c : Dev nD) (q : PosShare TreeShare) (pf : pre1.Contents (Elt F)) :
    (Pipeline.prefHeld pre1 c (fun _ => q) pf : sProp 𝕄) = iprop(tbPt1 c q tbM1_0 (pf 0) ∗ tbPt1 c q tbM1_1 (pf 1)) := by
  unfold Pipeline.prefHeld
  rw [show (Finset.univ : Finset (Fin 2)) = insert (0 : Fin 2) {(1 : Fin 2)} from by decide,
    bigSep_insert (by decide), bigSep_singleton]
  rfl

theorem cond_of_bool (b : Bool) : (Scalar.cmpi .ne (Scalar.extui (BitVec.ofBool b)) 0#32 = 1#1) ↔ b = true := by
  cases b <;> decide

theorem cond1_iff (ki : BitVec 32) : (Scalar.cmpi .ne (Scalar.extui (Scalar.cmpi .eq ki 0#32)) 0#32 = 1#1) ↔ ki = 0#32 :=
  (cond_of_bool (ki == 0#32)).trans beq_iff_eq

theorem cond2_iff (qi ki : BitVec 32) : (Scalar.cmpi .ne (Scalar.extui (Scalar.cmpi .slt ki qi)) 0#32 = 1#1) ↔ BitVec.slt ki qi = true :=
  cond_of_bool (BitVec.slt ki qi)

theorem cond3_iff (qi ki : BitVec 32) : (k1_cond3 qi ki = 1#1) ↔ ki = qi :=
  (cond_of_bool (ki == qi)).trans beq_iff_eq

theorem slt_irrefl (a : BitVec 32) : BitVec.slt a a = false := by
  simp [BitVec.slt]

abbrev w1At (pf : pre1.Contents (Elt F)) (i : grid1.Coords) : Elt F .i32 :=
  View.readAt (Elt F) (tbM1_0).view (Rect.unit (s := S10) (k1_off1 i) S1.size (k1_off1_inb i)).toLoadRect (pf 0) (Shape.Idx.first (numel1_S1.symm ▸ Nat.one_pos))

abbrev w3At (pf : pre1.Contents (Elt F)) (i : grid1.Coords) : Elt F .i32 :=
  View.readAt (Elt F) (tbM1_1).view (Rect.unit (s := S10) (k1_off1 i) S1.size (k1_off1_inb i)).toLoadRect (pf 1) (Shape.Idx.first (numel1_S1.symm ▸ Nat.one_pos))

theorem w1At_eq (pf : pre1.Contents (Elt F)) (i : grid1.Coords) : w1At pf i = qiW pf i := by
  have h : ∀ a : Fin (pre1.ref 0).ty.shape.rank, k1_off1 i a + 1 ≤ (pre1.ref 0).ty.shape.size a := by
    intro a; have := k1_off1_inb i a
    match a with
    | ⟨0, _⟩ => exact this
  show (pf 0) ((Rect.unit (s := S10) (k1_off1 i) S1.size (k1_off1_inb i)).emb _) = dite _ _ _
  rw [dif_pos h]
  congr 1

theorem w3At_eq (pf : pre1.Contents (Elt F)) (i : grid1.Coords) : w3At pf i = kiW pf i := by
  have h : ∀ a : Fin (pre1.ref 1).ty.shape.rank, k1_off1 i a + 1 ≤ (pre1.ref 1).ty.shape.size a := by
    intro a; have := k1_off1_inb i a
    match a with
    | ⟨0, _⟩ => exact this
  show (pf 1) ((Rect.unit (s := S10) (k1_off1 i) S1.size (k1_off1_inb i)).emb _) = dite _ _ _
  rw [dif_pos h]
  congr 1

theorem c1_iff (pf : pre1.Contents (Elt F)) (i : grid1.Coords) :
    Scalar.cmpi .ne (Scalar.extui (Scalar.cmpi .eq (w3At pf i) 0#32)) 0#32 = 1#1 ↔ kiW pf i = 0#32 := by
  rw [cond1_iff, w3At_eq]
theorem c2_iff (pf : pre1.Contents (Elt F)) (i : grid1.Coords) :
    Scalar.cmpi .ne (Scalar.extui (Scalar.cmpi .slt (w3At pf i) (w1At pf i))) 0#32 = 1#1 ↔ BitVec.slt (kiW pf i) (qiW pf i) = true := by
  rw [cond2_iff, w3At_eq, w1At_eq]
theorem c3_iff (pf : pre1.Contents (Elt F)) (i : grid1.Coords) :
    k1_cond3 (w1At pf i) (w3At pf i) = 1#1 ↔ kiW pf i = qiW pf i := by
  rw [cond3_iff, w3At_eq, w1At_eq]
theorem ne_of_slt {a b : BitVec 32} (h : BitVec.slt a b = true) : a ≠ b :=
  fun e => by rw [e, slt_irrefl] at h; exact Bool.false_ne_true h
theorem not_slt_of_eq {a b : BitVec 32} (e : a = b) : ¬ BitVec.slt a b = true := by
  rw [e, slt_irrefl]; exact Bool.false_ne_true

theorem w1_eq (pf : pre1.Contents (Elt F)) (i : grid1.Coords) :
    View.readAt (Elt F) (tbM1_0).view (Rect.unit (s := S10) (k1_off1 i) S1.size (k1_off1_inb i)).toLoadRect (pf 0) (Shape.Idx.first (numel1_S1.symm ▸ Nat.one_pos)) = qiW pf i :=
  w1At_eq pf i

theorem w3_eq (pf : pre1.Contents (Elt F)) (i : grid1.Coords) :
    View.readAt (Elt F) (tbM1_1).view (Rect.unit (s := S10) (k1_off1 i) S1.size (k1_off1_inb i)).toLoadRect (pf 1) (Shape.Idx.first (numel1_S1.symm ▸ Nat.one_pos)) = kiW pf i :=
  w3At_eq pf i

section Whole

variable {Val : EltTy → Type} [∀ e, Nonempty (Val e)] {sg : RefSig} {kd : Kind} {sp : Space} {e : EltTy} {S : Shape}

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

theorem read_writes_head (v : View sg kd sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz
  rw [View.read_writes_eq_canon _ _ _ (fun y => ⟨_, List.mem_cons_self, by
      show y ∈ (Rect.whole S).set
      rw [Rect.set_whole]; exact Finset.mem_univ y⟩), View.canon_cons_unit_zero rfl]

theorem readAt_unit0 (v : View sg kd sp S e) (f : v.ty.Contents Val) {off : Fin S.rank → ℕ} (hz : off = fun _ => 0)
    (inb : ∀ a, off a + S.size a ≤ S.size a) :
    v.readAt Val (Rect.unit off S.size inb).toLoadRect f = v.read Val f := by
  rw [View.readAt_eq_ld, View.ld_unit_zero hz]

theorem rdW {arg : Memref sg kd sp S e} (harg : arg.IsWhole) (x : S.Idx → Val e) {off : Fin S.rank → ℕ} (hz : off = fun _ => 0)
    (inb : ∀ a, off a + S.size a ≤ S.size a) :
    arg.view.readAt Val (Rect.unit off S.size inb).toLoadRect (harg.unread x) = x := by
  rw [readAt_unit0 _ _ hz, harg.read_unread]

theorem rcW (v : View sg kd sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

end Whole

section Cases

variable (c : Dev nD) (i : grid1.Coords) (q : PosShare TreeShare) (pf : pre1.Contents (Elt F))
  (arg4 : Memref sig .tc .vmem S1x512x1024 .bf16) (harg4 : arg4.IsWhole) (arg5 : Memref sig .tc .vmem S1x512x1024 .bf16) (harg5 : arg5.IsWhole)
  (arg6 : Memref sig .tc .vmem S1x512x1024 .bf16) (harg6 : arg6.IsWhole) (arg7 : Memref sig .tc .vmem S1x512x1024 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1024 .f32) (harg10 : arg10.IsWhole) (xq xk xv : Vec F S1x512x1024 .bf16)

/-- The body's triple at a grid point: the tables and the three input blocks are held throughout; `P7 … P10` are what the
    output buffer and the three scratches hold before, `Q7 … Q10` after. -/
abbrev Tr1 (E : Set ℕ) (K : PUnit → sProp 𝕄) (P7 P8 P9 P10 Q7 Q8 Q9 Q10 : sProp 𝕄) : Prop :=
  iprop(Pipeline.prefHeld pre1 c (fun _ => q) pf
      ∗ owns (c : Thread nD τ) arg4 fullShare xq ∗ owns (c : Thread nD τ) arg5 fullShare xk ∗ owns (c : Thread nD τ) arg6 fullShare xv
      ∗ P7 ∗ P8 ∗ P9 ∗ P10
      ∗ (iprop(Pipeline.prefHeld pre1 c (fun _ => q) pf
          ∗ owns (c : Thread nD τ) arg4 fullShare xq ∗ owns (c : Thread nD τ) arg5 fullShare xk ∗ owns (c : Thread nD τ) arg6 fullShare xv
          ∗ Q7 ∗ Q8 ∗ Q9 ∗ Q10) -∗ K ⟨⟩))
    ⊢ wp frame (wpE (defs₀ (F := F)) Variants.none c none) E
        (cc1_attn_kernel i (Memref.whole main_c) (Memref.isWhole_whole _) (Memref.whole main_c_0) (Memref.isWhole_whole _)
          arg4 harg4 arg5 harg5 arg6 harg6 arg7 harg7 arg8 harg8 arg9 harg9 arg10 harg10) K

set_option maxHeartbeats 4000000 in
/-- Column tile first and left of the diagonal: the scratches restart, one unmasked update, the output untouched. -/
theorem sound_kernel1_A (d : Vec F S1x512x1024 .f32) (hk0 : kiW pf i = 0#32) (hlt : BitVec.slt (kiW pf i) (qiW pf i) = true)
    (E : Set ℕ) (K : PUnit → sProp 𝕄) :
    Tr1 c i q pf arg4 harg4 arg5 harg5 arg6 harg6 arg7 harg7 arg8 harg8 arg9 harg9 arg10 harg10 xq xk xv E K
      (owns (c : Thread nD τ) arg7 fullShare d) iprop(∃ s, owns (c : Thread nD τ) arg8 fullShare s) iprop(∃ s, owns (c : Thread nD τ) arg9 fullShare s) iprop(∃ s, owns (c : Thread nD τ) arg10 fullShare s)
      (owns (c : Thread nD τ) arg7 fullShare d) (owns (c : Thread nD τ) arg8 fullShare (newM_A xq xk)) (owns (c : Thread nD τ) arg9 fullShare (newL_A xq xk)) (owns (c : Thread nD τ) arg10 fullShare (newAcc_A xq xk xv)) := by
  have hc1 := (c1_iff pf i).mpr hk0
  have hc2 := (c2_iff pf i).mpr hlt
  have hc3 := mt (c3_iff pf i).mp (ne_of_slt hlt)
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%f7, %hf7, H7⟩, ⟨%s8, %f8, %hf8, H8⟩, ⟨%s9, %f9, %hf9, H9⟩, ⟨%s10, %f10, %hf10, H10⟩, Hk⟩
  obtain rfl := harg4.eq_unread hf4; obtain rfl := harg5.eq_unread hf5; obtain rfl := harg6.eq_unread hf6
  obtain rfl := harg7.eq_unread hf7
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; rotate_left; · iexact H8
    ipureintro
    refine (read_writes_head _ _ hz2 _ _ _).trans ?_
    unfold sound_kernel1_A.sl.r_2 sound_kernel1_A.sl.v18 sound_kernel1_A.sl.H8_1
    rw [rcW arg8.view hz2, rdW harg4 xq hz3, rdW harg5 xk hz3]; rfl
  isplitl [H9]
  · iexists _; isplitr; rotate_left; · iexact H9
    ipureintro
    refine (read_writes_head _ _ hz2 _ _ _).trans ?_
    unfold sound_kernel1_A.sl.v18 sound_kernel1_A.sl.v27 sound_kernel1_A.sl.H8_1 sound_kernel1_A.sl.H9_1
    rw [rcW arg8.view hz2, rcW arg9.view hz2, rdW harg4 xq hz3, rdW harg5 xk hz3]; rfl
  iexists _; isplitr; rotate_left; · iexact H10
  ipureintro
  refine (read_writes_head _ _ hz2 _ _ _).trans ?_
  unfold sound_kernel1_A.sl.v18 sound_kernel1_A.sl.v35 sound_kernel1_A.sl.H8_1 sound_kernel1_A.sl.H10_1
  rw [rcW arg8.view hz2, rcW arg10.view hz2, rdW harg4 xq hz3, rdW harg5 xk hz3, rdW harg6 xv hz3]; rfl

set_option maxHeartbeats 4000000 in
/-- Column tile first and on the diagonal: restart, one masked update, and the output block. -/
theorem sound_kernel1_B (hk0 : kiW pf i = 0#32) (heq : kiW pf i = qiW pf i) (E : Set ℕ) (K : PUnit → sProp 𝕄) :
    Tr1 c i q pf arg4 harg4 arg5 harg5 arg6 harg6 arg7 harg7 arg8 harg8 arg9 harg9 arg10 harg10 xq xk xv E K
      iprop(∃ d, owns (c : Thread nD τ) arg7 fullShare d) iprop(∃ s, owns (c : Thread nD τ) arg8 fullShare s) iprop(∃ s, owns (c : Thread nD τ) arg9 fullShare s) iprop(∃ s, owns (c : Thread nD τ) arg10 fullShare s)
      (owns (c : Thread nD τ) arg7 fullShare (outBlk_B (qiW pf i) (kiW pf i) xq xk xv)) (owns (c : Thread nD τ) arg8 fullShare (newM_B (qiW pf i) (kiW pf i) xq xk)) (owns (c : Thread nD τ) arg9 fullShare (newL_B (qiW pf i) (kiW pf i) xq xk)) (owns (c : Thread nD τ) arg10 fullShare (newAcc_B (qiW pf i) (kiW pf i) xq xk xv)) := by
  have hc1 := (c1_iff pf i).mpr hk0
  have hc2 := mt (c2_iff pf i).mp (not_slt_of_eq heq)
  have hc3 := (c3_iff pf i).mpr heq
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%d7, %f7, %hf7, H7⟩, ⟨%s8, %f8, %hf8, H8⟩, ⟨%s9, %f9, %hf9, H9⟩, ⟨%s10, %f10, %hf10, H10⟩, Hk⟩
  obtain rfl := harg4.eq_unread hf4; obtain rfl := harg5.eq_unread hf5; obtain rfl := harg6.eq_unread hf6
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro
    refine (read_writes_head _ _ hz3 _ _ _).trans ?_
    unfold sound_kernel1_B.sl.v60 sound_kernel1_B.sl.v61 sound_kernel1_B.sl.H10_2 sound_kernel1_B.sl.H9_2
    rw [View.readCov_cons_toLoadRect, View.readCov_cons_toLoadRect]
    unfold sound_kernel1_B.sl.r_3 sound_kernel1_B.sl.r_4 sound_kernel1_B.sl.r sound_kernel1_B.sl.r_1 sound_kernel1_B.sl.v29 sound_kernel1_B.sl.v38 sound_kernel1_B.sl.v46 sound_kernel1_B.sl.H8_1 sound_kernel1_B.sl.H9_1 sound_kernel1_B.sl.H10_1
    rw [rcW arg8.view hz2, rcW arg9.view hz2, rcW arg10.view hz2, w1_eq, w3_eq, rdW harg4 xq hz3, rdW harg5 xk hz3, rdW harg6 xv hz3]; rfl
  isplitl [H8]
  · iexists _; isplitr; rotate_left; · iexact H8
    ipureintro
    refine (read_writes_head _ _ hz2 _ _ _).trans ?_
    unfold sound_kernel1_B.sl.r_2 sound_kernel1_B.sl.v29 sound_kernel1_B.sl.r sound_kernel1_B.sl.r_1 sound_kernel1_B.sl.H8_1
    rw [rcW arg8.view hz2, w1_eq, w3_eq, rdW harg4 xq hz3, rdW harg5 xk hz3]; rfl
  isplitl [H9]
  · iexists _; isplitr; rotate_left; · iexact H9
    ipureintro
    refine (read_writes_head _ _ hz2 _ _ _).trans ?_
    unfold sound_kernel1_B.sl.r sound_kernel1_B.sl.r_1 sound_kernel1_B.sl.v29 sound_kernel1_B.sl.v38 sound_kernel1_B.sl.H8_1 sound_kernel1_B.sl.H9_1
    rw [rcW arg8.view hz2, rcW arg9.view hz2, w1_eq, w3_eq, rdW harg4 xq hz3, rdW harg5 xk hz3]; rfl
  iexists _; isplitr; rotate_left; · iexact H10
  ipureintro
  refine (read_writes_head _ _ hz2 _ _ _).trans ?_
  unfold sound_kernel1_B.sl.r_3 sound_kernel1_B.sl.r_4 sound_kernel1_B.sl.r sound_kernel1_B.sl.r_1 sound_kernel1_B.sl.v29 sound_kernel1_B.sl.v46 sound_kernel1_B.sl.H8_1 sound_kernel1_B.sl.H10_1
  rw [rcW arg8.view hz2, rcW arg10.view hz2, w1_eq, w3_eq, rdW harg4 xq hz3, rdW harg5 xk hz3, rdW harg6 xv hz3]; rfl

set_option maxHeartbeats 4000000 in
/-- A later column tile left of the diagonal: one unmasked update of the scratches, the output untouched. -/
theorem sound_kernel1_C (d : Vec F S1x512x1024 .f32) (sm sl : Vec F S512x1 .f32) (sa : Vec F S512x1024 .f32)
    (hk0 : kiW pf i ≠ 0#32) (hlt : BitVec.slt (kiW pf i) (qiW pf i) = true) (E : Set ℕ) (K : PUnit → sProp 𝕄) :
    Tr1 c i q pf arg4 harg4 arg5 harg5 arg6 harg6 arg7 harg7 arg8 harg8 arg9 harg9 arg10 harg10 xq xk xv E K
      (owns (c : Thread nD τ) arg7 fullShare d) (owns (c : Thread nD τ) arg8 fullShare sm) (owns (c : Thread nD τ) arg9 fullShare sl) (owns (c : Thread nD τ) arg10 fullShare sa)
      (owns (c : Thread nD τ) arg7 fullShare d) (owns (c : Thread nD τ) arg8 fullShare (newM_C xq xk sm)) (owns (c : Thread nD τ) arg9 fullShare (newL_C xq xk sm sl)) (owns (c : Thread nD τ) arg10 fullShare (newAcc_C xq xk xv sm sa)) := by
  have hc1 := mt (c1_iff pf i).mp hk0
  have hc2 := (c2_iff pf i).mpr hlt
  have hc3 := mt (c3_iff pf i).mp (ne_of_slt hlt)
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; rotate_left; · iexact H8
    ipureintro
    refine (read_writes_head _ _ hz2 _ _ _).trans ?_
    unfold sound_kernel1_C.sl.r_2
    rw [rdW harg4 xq hz3, rdW harg5 xk hz3, rdW harg8 sm hz2]; rfl
  isplitl [H9]
  · iexists _; isplitr; rotate_left; · iexact H9
    ipureintro
    refine (read_writes_head _ _ hz2 _ _ _).trans ?_
    rw [rdW harg4 xq hz3, rdW harg5 xk hz3, rdW harg8 sm hz2, rdW harg9 sl hz2]; rfl
  iexists _; isplitr; rotate_left; · iexact H10
  ipureintro
  refine (read_writes_head _ _ hz2 _ _ _).trans ?_
  rw [rdW harg4 xq hz3, rdW harg5 xk hz3, rdW harg6 xv hz3, rdW harg8 sm hz2, rdW harg10 sa hz2]; rfl

set_option maxHeartbeats 4000000 in
/-- A later column tile on the diagonal: one masked update of the scratches, and the output block. -/
theorem sound_kernel1_D (sm sl : Vec F S512x1 .f32) (sa : Vec F S512x1024 .f32)
    (hk0 : kiW pf i ≠ 0#32) (heq : kiW pf i = qiW pf i) (E : Set ℕ) (K : PUnit → sProp 𝕄) :
    Tr1 c i q pf arg4 harg4 arg5 harg5 arg6 harg6 arg7 harg7 arg8 harg8 arg9 harg9 arg10 harg10 xq xk xv E K
      iprop(∃ d, owns (c : Thread nD τ) arg7 fullShare d) (owns (c : Thread nD τ) arg8 fullShare sm) (owns (c : Thread nD τ) arg9 fullShare sl) (owns (c : Thread nD τ) arg10 fullShare sa)
      (owns (c : Thread nD τ) arg7 fullShare (outBlk_D (qiW pf i) (kiW pf i) xq xk xv sm sl sa)) (owns (c : Thread nD τ) arg8 fullShare (newM_D (qiW pf i) (kiW pf i) xq xk sm)) (owns (c : Thread nD τ) arg9 fullShare (newL_D (qiW pf i) (kiW pf i) xq xk sm sl)) (owns (c : Thread nD τ) arg10 fullShare (newAcc_D (qiW pf i) (kiW pf i) xq xk xv sm sa)) := by
  have hc1 := mt (c1_iff pf i).mp hk0
  have hc2 := mt (c2_iff pf i).mp (not_slt_of_eq heq)
  have hc3 := (c3_iff pf i).mpr heq
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%d7, %f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro
    refine (read_writes_head _ _ hz3 _ _ _).trans ?_
    unfold sound_kernel1_D.sl.v60 sound_kernel1_D.sl.v61 sound_kernel1_D.sl.H10_1 sound_kernel1_D.sl.H9_1 sound_kernel1_D.sl.r_3 sound_kernel1_D.sl.r_4 sound_kernel1_D.sl.r sound_kernel1_D.sl.r_1
    rw [rcW arg10.view hz2, rcW arg9.view hz2, w1_eq, w3_eq, rdW harg4 xq hz3, rdW harg5 xk hz3, rdW harg6 xv hz3, rdW harg8 sm hz2, rdW harg9 sl hz2, rdW harg10 sa hz2]; rfl
  isplitl [H8]
  · iexists _; isplitr; rotate_left; · iexact H8
    ipureintro
    refine (read_writes_head _ _ hz2 _ _ _).trans ?_
    unfold sound_kernel1_D.sl.r_2 sound_kernel1_D.sl.r sound_kernel1_D.sl.r_1
    rw [w1_eq, w3_eq, rdW harg4 xq hz3, rdW harg5 xk hz3, rdW harg8 sm hz2]; rfl
  isplitl [H9]
  · iexists _; isplitr; rotate_left; · iexact H9
    ipureintro
    refine (read_writes_head _ _ hz2 _ _ _).trans ?_
    unfold sound_kernel1_D.sl.r sound_kernel1_D.sl.r_1
    rw [w1_eq, w3_eq, rdW harg4 xq hz3, rdW harg5 xk hz3, rdW harg8 sm hz2, rdW harg9 sl hz2]; rfl
  iexists _; isplitr; rotate_left; · iexact H10
  ipureintro
  refine (read_writes_head _ _ hz2 _ _ _).trans ?_
  unfold sound_kernel1_D.sl.r_3 sound_kernel1_D.sl.r_4 sound_kernel1_D.sl.r sound_kernel1_D.sl.r_1
  rw [w1_eq, w3_eq, rdW harg4 xq hz3, rdW harg5 xk hz3, rdW harg6 xv hz3, rdW harg8 sm hz2, rdW harg10 sa hz2]; rfl

end Cases

end Cert.KernelIdeal.Hand

end
-- ==== Proof.R1Data.lean ====
import proofs.«403451_j89893665506083_3_alg».proof.Proof.Gen.KernelIdeal.Launch
import proofs.«403451_j89893665506083_3_alg».proof.Proof.Gen.KernelIdeal.Skeleton
import proofs.«403451_j89893665506083_3_alg».proof.Proof.Gen.KernelIdeal.Points
import Idealize.ShloMosaic.Lib.Pipeline.FrameBody
import Idealize.ShloMosaic.Lib.Pipeline.Regions
import Idealize.ShloMosaic.Lib.Pipeline.FrameSuffix
import Idealize.ShloMosaic.Lib.Tactic
import proofs.«403451_j89893665506083_3_alg».proof.Proof.R1Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf prefHeld)
open Cert.KernelIdeal.Gen

variable {F : FTy → Type} [FloatOps F] [Named F]

local notation "𝕄" => MT nD τ sig Unit (Elt F) ℕ (UR sig nD τ) ℕ

abbrev Scr1 (F : FTy → Type) [FloatOps F] : Type :=
  Vec F S512x1 .f32 × Vec F S512x1 .f32 × Vec F S512x1024 .f32

abbrev Pt1 (F : FTy → Type) [FloatOps F] : Type := Vec F S1x512x1024 .f32 × Scr1 F

def stepA (xq xk xv : Vec F S1x512x1024 .bf16) : Scr1 F :=
  (newM_A xq xk, newL_A xq xk, newAcc_A xq xk xv)

def stepB (v1 v3 : Elt F .i32) (xq xk xv : Vec F S1x512x1024 .bf16) : Pt1 F :=
  (outBlk_B v1 v3 xq xk xv, newM_B v1 v3 xq xk, newL_B v1 v3 xq xk, newAcc_B v1 v3 xq xk xv)

def stepC (xq xk xv : Vec F S1x512x1024 .bf16) (s : Scr1 F) : Scr1 F :=
  (newM_C xq xk s.1, newL_C xq xk s.1 s.2.1, newAcc_C xq xk xv s.1 s.2.2)

def stepD (v1 v3 : Elt F .i32) (xq xk xv : Vec F S1x512x1024 .bf16) (s : Scr1 F) : Pt1 F :=
  (outBlk_D v1 v3 xq xk xv s.1 s.2.1 s.2.2, newM_D v1 v3 xq xk s.1, newL_D v1 v3 xq xk s.1 s.2.1, newAcc_D v1 v3 xq xk xv s.1 s.2.2)

section Region1
variable (V : (c : Dev nD) → (b : Ref sig .tc) → Buf (Elt F) ((c : Thread nD τ).loc b))
variable (a : (pcfg1 (F := F)).Adm)

structure Sched1 : Prop where
  le : ∀ t : Fin (cfg1 a).N, (kiW a.1 (grid1.coords t)).slt (qiW a.1 (grid1.coords t)) = true ∨ kiW a.1 (grid1.coords t) = qiW a.1 (grid1.coords t)
  first : ∀ h : 0 < (cfg1 a).N, kiW a.1 (grid1.coords ⟨0, h⟩) = 0#32
  noFlush : ∀ t : Fin (cfg1 a).N, kiW a.1 (grid1.coords t) ≠ qiW a.1 (grid1.coords t) → ((cfg1 a).win 3).flush t = false

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def junk1 : Pt1 F :=
  (fun _ => (Elt.inhabited F .f32).default, fun _ => (Elt.inhabited F .f32).default,
   fun _ => (Elt.inhabited F .f32).default, fun _ => (Elt.inhabited F .f32).default)

def pt1 (c : Dev nD) (t : Fin (cfg1 a).N) (p : Pt1 F) : Pt1 F :=
  if kiW a.1 (grid1.coords t) = 0#32 then
    if kiW a.1 (grid1.coords t) = qiW a.1 (grid1.coords t) then
      stepB (qiW a.1 (grid1.coords t)) (kiW a.1 (grid1.coords t)) (iblk1 V a c 0 t) (iblk1 V a c 1 t) (iblk1 V a c 2 t)
    else
      (p.1, stepA (iblk1 V a c 0 t) (iblk1 V a c 1 t) (iblk1 V a c 2 t))
  else
    if kiW a.1 (grid1.coords t) = qiW a.1 (grid1.coords t) then
      stepD (qiW a.1 (grid1.coords t)) (kiW a.1 (grid1.coords t)) (iblk1 V a c 0 t) (iblk1 V a c 1 t) (iblk1 V a c 2 t) p.2
    else
      (p.1, stepC (iblk1 V a c 0 t) (iblk1 V a c 1 t) (iblk1 V a c 2 t) p.2)

def outsAt1 (c : Dev nD) : (n : ℕ) → n < (cfg1 a).N → Pt1 F
  | 0, hn => pt1 V a c ⟨0, hn⟩ junk1
  | n + 1, hn => pt1 V a c ⟨n + 1, hn⟩ (outsAt1 c n (Nat.lt_of_succ_lt hn))

def prev1 (c : Dev nD) (t : Fin (cfg1 a).N) : Pt1 F :=
  if hz : t.val = 0 then junk1 else outsAt1 V a c (t.val - 1) (Nat.lt_of_le_of_lt (Nat.sub_le _ _) t.isLt)

theorem outsAt1_eq (c : Dev nD) (t : Fin (cfg1 a).N) : outsAt1 V a c t.val t.isLt = pt1 V a c t (prev1 V a c t) := by
  obtain ⟨n, hn⟩ := t
  cases n with
  | zero => unfold prev1; rw [dif_pos rfl]; rfl
  | succ n => unfold prev1; rw [dif_neg (Nat.succ_ne_zero n)]; rfl

def scr1At (c : Dev nD) (s : Scr1 F) : sProp 𝕄 :=
  iprop(owns (c : Thread nD τ) (Memref.whole cc1_scratch0 : Memref sig .tc .vmem S512x1 .f32) fullShare s.1
    ∗ owns (c : Thread nD τ) (Memref.whole cc1_scratch1 : Memref sig .tc .vmem S512x1 .f32) fullShare s.2.1
    ∗ owns (c : Thread nD τ) (Memref.whole cc1_scratch2 : Memref sig .tc .vmem S512x1024 .f32) fullShare s.2.2)

def scr1Any (c : Dev nD) : sProp 𝕄 :=
  iprop((∃ d, owns (c : Thread nD τ) (Memref.whole cc1_scratch0 : Memref sig .tc .vmem S512x1 .f32) fullShare d)
    ∗ (∃ d, owns (c : Thread nD τ) (Memref.whole cc1_scratch1 : Memref sig .tc .vmem S512x1 .f32) fullShare d)
    ∗ (∃ d, owns (c : Thread nD τ) (Memref.whole cc1_scratch2 : Memref sig .tc .vmem S512x1024 .f32) fullShare d))

theorem scr1Any_of_At (c : Dev nD) (s : Scr1 F) : (scr1At c s : sProp 𝕄) ⊢ scr1Any (F := F) c := by
  unfold scr1At scr1Any
  iintro ⟨S0, S1, S2⟩
  isplitl [S0]; · iexists _; iexact S0
  isplitl [S1]; · iexists _; iexact S1
  iexists _; iexact S2

/-- Core `c`'s buffer `b` held whole at some contents. -/
abbrev anyAt (c : Dev nD) (b : Ref sig .tc) : sProp 𝕄 :=
  iprop(∃ f : Buf (Elt F) ((c : Thread nD τ).loc b), ((c : Thread nD τ).loc b) ↦{fullShare} f)

def stg0Any (c : Dev nD) : sProp 𝕄 :=
  iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg5_0 ∗ anyAt c cc0_stg6_0 ∗ anyAt c cc0_stg7_0 ∗ anyAt c cc0_stg7_1 ∗ anyAt c cc0_stg8_0 ∗ anyAt c cc0_stg8_1 ∗ anyAt c cc0_stg9_0 ∗ anyAt c cc0_stg9_1)

def PhiS1 (c : Dev nD) : (n : ℕ) → n ≤ (cfg1 a).N → sProp 𝕄
  | 0, _ => iprop(prefHeld pre1 c (fun _ => fullShare) a.1 ∗ (∃ r, prngReg c r) ∗ stg0Any (F := F) c ∗ scr1Any (F := F) c)
  | n + 1, hn => iprop(prefHeld pre1 c (fun _ => fullShare) a.1 ∗ (∃ r, prngReg c r) ∗ stg0Any (F := F) c ∗ scr1At c (outsAt1 V a c n hn).2)

theorem PhiS1_zero (c : Dev nD) (n : ℕ) (h : n ≤ (cfg1 a).N) (hz : n = 0) :
    PhiS1 V a c n h = iprop(prefHeld pre1 c (fun _ => fullShare) a.1 ∗ (∃ r, prngReg c r) ∗ stg0Any (F := F) c ∗ scr1Any (F := F) c) := by
  subst hz; rfl
theorem PhiS1_succ (c : Dev nD) (n : ℕ) (hn : n < (cfg1 a).N) :
    PhiS1 V a c (n + 1) hn = iprop(prefHeld pre1 c (fun _ => fullShare) a.1 ∗ (∃ r, prngReg c r) ∗ stg0Any (F := F) c ∗ scr1At c (outsAt1 V a c n hn).2) := rfl
theorem PhiS1_pos (c : Dev nD) (n : ℕ) (h : n ≤ (cfg1 a).N) (hz : n ≠ 0) :
    PhiS1 V a c n h = iprop(prefHeld pre1 c (fun _ => fullShare) a.1 ∗ (∃ r, prngReg c r) ∗ stg0Any (F := F) c ∗ scr1At c (outsAt1 V a c (n - 1) (by omega)).2) := by
  cases n with
  | zero => exact absurd rfl hz
  | succ n => rfl

theorem scopedRest1_split (c : Dev nD) :
    (Pipeline.scopedRest spec1 c : sProp 𝕄) ⊣⊢ iprop(stg0Any (F := F) c ∗ scr1Any (F := F) c) := by
  rw [scopedRest1_eq]; unfold stg0Any scr1Any anyAt; simp only [owns_whole]
  constructor
  · iintro ⟨H0, H1, H2, H3, H4, H5, H6, H7, H8, H9, H10, H11, H12, H13, S0, S1, S2⟩
    isplitr [S0 S1 S2]
    · iframe
    · iframe
  · iintro ⟨⟨H0, H1, H2, H3, H4, H5, H6, H7, H8, H9, H10, H11, H12, H13⟩, S0, S1, S2⟩
    iframe

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a c t.val t.isLt).1
  Φ t := PhiS1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]
theorem PhiS1_castSucc (c : Dev nD) (t : Fin (cfg1 a).N) : (dat1 V a c).Φ t.castSucc = PhiS1 V a c t.val (Nat.le_of_lt t.isLt) := by
  dsimp only [dat1]; simp only [Fin.coe_castSucc]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = (outsAt1 V a c t.val t.isLt).1 := by dsimp only [dat1]; rfl

theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

def bodyPre1 (c : Dev nD) (t : Fin (cfg1 a).N) : sProp 𝕄 :=
  iprop((dat1 V a c).Φ t.castSucc ∗ (dat1 V a c).owesAt () t.castSucc
    ∗ (∃ d, owns (c : Thread nD τ) (((cfg1 a).win 0).stage ((cfg1 a).slots t 0)) fullShare ((dat1 V a c).before 0 t d))
    ∗ (∃ d, owns (c : Thread nD τ) (((cfg1 a).win 1).stage ((cfg1 a).slots t 1)) fullShare ((dat1 V a c).before 1 t d))
    ∗ (∃ d, owns (c : Thread nD τ) (((cfg1 a).win 2).stage ((cfg1 a).slots t 2)) fullShare ((dat1 V a c).before 2 t d))
    ∗ (∃ d, owns (c : Thread nD τ) (((cfg1 a).win 3).stage ((cfg1 a).slots t 3)) fullShare ((dat1 V a c).before 3 t d)))

def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

abbrev bodyAt1 (t : Fin (cfg1 a).N) : Prog (TpuEff nD τ sig (Elt F) Λ₀ .tc) PUnit :=
  cc1_attn_kernel (grid1.coords t) (Memref.whole main_c) (Memref.isWhole_whole _) (Memref.whole main_c_0) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _) (Memref.whole cc1_scratch1) (Memref.isWhole_whole _) (Memref.whole cc1_scratch2) (Memref.isWhole_whole _)

theorem liveAt1_0 (i : grid1.Coords) : (cfg1 a).idle 0 i = false := rfl
theorem liveAt1_1 (i : grid1.Coords) : (cfg1 a).idle 1 i = false := rfl
theorem liveAt1_2 (i : grid1.Coords) : (cfg1 a).idle 2 i = false := rfl

theorem liveAt1_3 (i : grid1.Coords) (hd : kiW a.1 i = qiW a.1 i) : (cfg1 a).idle 3 i = false := by
  show (!(k1_cond3 (qiW a.1 i) (kiW a.1 i) == 1#1)) = false
  rw [(cond3_iff _ _).mpr hd]; rfl

theorem idleAt1_3 (i : grid1.Coords) (hd : kiW a.1 i ≠ qiW a.1 i) : (cfg1 a).idle 3 i = true := by
  show (!(k1_cond3 (qiW a.1 i) (kiW a.1 i) == 1#1)) = true
  have : ¬ k1_cond3 (qiW a.1 i) (kiW a.1 i) = 1#1 := fun h => hd ((cond3_iff _ _).mp h)
  rw [Bool.not_eq_true', beq_eq_false_iff_ne]; exact this

theorem leaves1_0 (c : Dev nD) (t : Fin (cfg1 a).N) :
    (dat1 V a c).leavesExact 0 t = owns (c : Thread nD τ) (((cfg1 a).win 0).stage ((cfg1 a).slots t 0)) fullShare (iblk1 V a c 0 t) := by
  unfold Dat.leavesExact; rw [liveAt1_0 a, after1_0]
theorem leaves1_1 (c : Dev nD) (t : Fin (cfg1 a).N) :
    (dat1 V a c).leavesExact 1 t = owns (c : Thread nD τ) (((cfg1 a).win 1).stage ((cfg1 a).slots t 1)) fullShare (iblk1 V a c 1 t) := by
  unfold Dat.leavesExact; rw [liveAt1_1 a, after1_1]
theorem leaves1_2 (c : Dev nD) (t : Fin (cfg1 a).N) :
    (dat1 V a c).leavesExact 2 t = owns (c : Thread nD τ) (((cfg1 a).win 2).stage ((cfg1 a).slots t 2)) fullShare (iblk1 V a c 2 t) := by
  unfold Dat.leavesExact; rw [liveAt1_2 a, after1_2]

theorem leaves1_3_diag (c : Dev nD) (t : Fin (cfg1 a).N) (hd : kiW a.1 (grid1.coords t) = qiW a.1 (grid1.coords t)) :
    (dat1 V a c).leavesExact 3 t = owns (c : Thread nD τ) (((cfg1 a).win 3).stage ((cfg1 a).slots t 3)) fullShare (outsAt1 V a c t.val t.isLt).1 := by
  unfold Dat.leavesExact; rw [liveAt1_3 a _ hd, after1_3]

theorem PhiS1_any (c : Dev nD) (n : ℕ) (h : n ≤ (cfg1 a).N) :
    PhiS1 V a c n h ⊢ (iprop(prefHeld pre1 c (fun _ => fullShare) a.1 ∗ (∃ r, prngReg c r) ∗ stg0Any (F := F) c ∗ scr1Any (F := F) c) : sProp 𝕄) := by
  by_cases hz : n = 0
  · rw [PhiS1_zero V a c n h hz]
  · rw [PhiS1_pos V a c n h hz]
    iintro ⟨Hpf, Hg, Hs, Hc⟩
    ihave Hc := (scr1Any_of_At c _) $$ Hc
    iframe

theorem prev1_pos (c : Dev nD) (t : Fin (cfg1 a).N) (hz : t.val ≠ 0) :
    prev1 V a c t = outsAt1 V a c (t.val - 1) (Nat.lt_of_le_of_lt (Nat.sub_le _ _) t.isLt) := by
  unfold prev1; rw [dif_neg hz]

theorem pos_of_ki_ne (hS : Sched1 a) (t : Fin (cfg1 a).N) (h0 : kiW a.1 (grid1.coords t) ≠ 0#32) : t.val ≠ 0 := by
  obtain ⟨n, hn⟩ := t
  intro hz
  have hz' : n = 0 := hz
  subst hz'
  exact h0 (hS.first hn)

/-- The body at any point, by the control case the two table words select there. -/
theorem sound_body1 (hS : Sched1 a) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2]
  rw [show (dat1 V a c).owesAt () t.succ = (dat1 V a c).owesAt () t.castSucc from rfl,
    show (dat1 V a c).Φ t.succ = PhiS1 V a c (t.val + 1) t.isLt from rfl, PhiS1_succ, PhiS1_castSucc,
    leaves1_0, leaves1_1, leaves1_2]
  by_cases h0 : kiW a.1 (grid1.coords t) = 0#32 <;> by_cases hd : kiW a.1 (grid1.coords t) = qiW a.1 (grid1.coords t)
  · rw [leaves1_3_diag V a c t hd, outsAt1_eq]; unfold pt1; rw [if_pos h0, if_pos hd]
    unfold scr1At stepB; dsimp only
    iintro ⟨HΦ, Ho, ⟨%d0, H0⟩, ⟨%d1, H1⟩, ⟨%d2, H2⟩, ⟨%d3, H3⟩⟩
    ihave HΦ := (PhiS1_any V a c _ _) $$ HΦ
    icases HΦ with ⟨Hpf, Hg, Hs, Hc⟩
    unfold scr1Any
    icases Hc with ⟨S0, S1, S2⟩
    iapply (sound_kernel1_B c (grid1.coords t) fullShare a.1 _ _ _ _ _ _ _ _ _ _ _ _ _ _
      (iblk1 V a c 0 t) (iblk1 V a c 1 t) (iblk1 V a c 2 t) h0 hd Set.univ _)
    isplitl [Hpf]; · iexact Hpf
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexact H3
  · have hlt : BitVec.slt (kiW a.1 (grid1.coords t)) (qiW a.1 (grid1.coords t)) = true := (hS.le t).resolve_right hd
    rw [Dat.leavesExact_idle (dat1 V a c) 3 t (idleAt1_3 a _ hd) (hS.noFlush t hd), outsAt1_eq]; unfold pt1; rw [if_pos h0, if_neg hd]
    unfold scr1At stepA; dsimp only
    iintro ⟨HΦ, Ho, ⟨%d0, H0⟩, ⟨%d1, H1⟩, ⟨%d2, H2⟩, ⟨%d3, H3⟩⟩
    ihave HΦ := (PhiS1_any V a c _ _) $$ HΦ
    icases HΦ with ⟨Hpf, Hg, Hs, Hc⟩
    unfold scr1Any
    icases Hc with ⟨S0, S1, S2⟩
    iapply (sound_kernel1_A c (grid1.coords t) fullShare a.1 _ _ _ _ _ _ _ _ _ _ _ _ _ _
      (iblk1 V a c 0 t) (iblk1 V a c 1 t) (iblk1 V a c 2 t) ((dat1 V a c).before 3 t d3) h0 hlt Set.univ _)
    isplitl [Hpf]; · iexact Hpf
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexists _; iexact H3
  · have hz : t.val ≠ 0 := pos_of_ki_ne a hS t h0
    rw [PhiS1_pos V a c _ _ hz, leaves1_3_diag V a c t hd, outsAt1_eq]; unfold pt1; rw [if_neg h0, if_pos hd, prev1_pos V a c t hz]
    unfold scr1At stepD; dsimp only
    iintro ⟨⟨Hpf, Hg, Hs, S0, S1, S2⟩, Ho, ⟨%d0, H0⟩, ⟨%d1, H1⟩, ⟨%d2, H2⟩, ⟨%d3, H3⟩⟩
    iapply (sound_kernel1_D c (grid1.coords t) fullShare a.1 _ _ _ _ _ _ _ _ _ _ _ _ _ _
      (iblk1 V a c 0 t) (iblk1 V a c 1 t) (iblk1 V a c 2 t) _ _ _ h0 hd Set.univ _)
    isplitl [Hpf]; · iexact Hpf
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexact H3
  · have hlt : BitVec.slt (kiW a.1 (grid1.coords t)) (qiW a.1 (grid1.coords t)) = true := (hS.le t).resolve_right hd
    have hz : t.val ≠ 0 := pos_of_ki_ne a hS t h0
    rw [PhiS1_pos V a c _ _ hz, Dat.leavesExact_idle (dat1 V a c) 3 t (idleAt1_3 a _ hd) (hS.noFlush t hd), outsAt1_eq]; unfold pt1; rw [if_neg h0, if_neg hd, prev1_pos V a c t hz]
    unfold scr1At stepC; dsimp only
    iintro ⟨⟨Hpf, Hg, Hs, S0, S1, S2⟩, Ho, ⟨%d0, H0⟩, ⟨%d1, H1⟩, ⟨%d2, H2⟩, ⟨%d3, H3⟩⟩
    iapply (sound_kernel1_C c (grid1.coords t) fullShare a.1 _ _ _ _ _ _ _ _ _ _ _ _ _ _
      (iblk1 V a c 0 t) (iblk1 V a c 1 t) (iblk1 V a c 2 t) ((dat1 V a c).before 3 t d3) _ _ _ h0 hlt Set.univ _)
    isplitl [Hpf]; · iexact Hpf
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexists _; iexact H3

theorem body_obligation1 (hS : Sched1 a) (c : Dev nD) :
    BodyObligation (dat1 (F := F) V a c) (defs₀ (F := F)) Variants.none () Set.univ := fun t => by
  rw [bigSep_W1, bigSep_W1]
  exact sound_body1 V a hS c t

theorem hin1 (c : Dev nD) :
    (iprop((∃ r, prngReg c r) ∗ prefHeld pre1 c (fun _ => fullShare) a.1 ∗ Pipeline.scopedRest spec1 c) : sProp 𝕄)
      ⊢ (dat1 V a c).Φ 0 := by
  rw [show (dat1 V a c).Φ 0 = PhiS1 V a c 0 (Nat.zero_le _) from rfl, PhiS1_zero V a c 0 _ rfl]
  iintro ⟨Hg, Hpf, Hr⟩
  ihave Hr := (scopedRest1_split (F := F) c).1 $$ Hr
  icases Hr with ⟨Hs, Hc⟩
  iframe

theorem Phi1_out (c : Dev nD) (t : Fin ((cfg1 a).N + 1)) :
    (dat1 V a c).Φ t ⊢ (iprop(((∃ r, prngReg c r) ∗ prefHeld pre1 c (fun _ => fullShare) a.1) ∗ Pipeline.scopedRest spec1 c) : sProp 𝕄) := by
  rw [show (dat1 V a c).Φ t = PhiS1 V a c t.val (Nat.le_of_lt_succ t.isLt) from rfl]
  by_cases hz : t.val = 0
  · rw [PhiS1_zero V a c _ _ hz]
    iintro ⟨Hpf, Hg, Hs, Hc⟩
    isplitl [Hg Hpf]; · iframe
    iapply (scopedRest1_split (F := F) c).2
    iframe
  · rw [PhiS1_pos V a c _ _ hz]
    iintro ⟨Hpf, Hg, Hs, Hc⟩
    ihave Hc := (scr1Any_of_At c _) $$ Hc
    isplitl [Hg Hpf]; · iframe
    iapply (scopedRest1_split (F := F) c).2
    iframe

theorem hout1 (c : Dev nD) :
    (dat1 V a c).Φ (Fin.last (cfg1 a).N) ⊢ (iprop(((∃ r, prngReg c r) ∗ prefHeld pre1 c (fun _ => fullShare) a.1) ∗ Pipeline.scopedRest spec1 c) : sProp 𝕄) :=
  Phi1_out V a c _

end Region1

end Cert.KernelIdeal.Hand

end
-- ==== Proof.R1Sched.lean ====
import proofs.«403451_j89893665506083_3_alg».proof.Proof.R1Data
import proofs.«403451_j89893665506083_3_alg».proof.Proof.Tables

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

theorem index1_3 (a : (pcfg1 (F := F)).Adm) (t : Fin (cfg1 a).N) :
    ((cfg1 a).win 3).index t = cc1_transform_3 k1_off1_inb numel1_S1 a.1 (grid1.coords t) := rfl

theorem flush1_3_false (a : (pcfg1 (F := F)).Adm) (t : Fin (cfg1 a).N) (hlast : t.val + 1 ≠ (cfg1 a).N)
    (hsame : ∀ h : t.val + 1 < (cfg1 a).N, ((cfg1 a).win 3).index ⟨t.val + 1, h⟩ = ((cfg1 a).win 3).index t) :
    ((cfg1 a).win 3).flush t = false := by
  unfold Pipeline.Window.flush
  rw [Bool.and_eq_false_iff]; right
  rw [Bool.or_eq_false_iff]
  refine ⟨decide_eq_false hlast, decide_eq_false ?_⟩
  rintro ⟨h, hx⟩
  exact hx (hsame h)

theorem Sched1.of_tables (a : (pcfg1 (F := F)).Adm) (pf : pre1.Contents (Elt F)) (hpf : a.1 = pf)
    (hq : ∀ i : grid1.Coords, pf.atD 0 (k1_off1 i) = lit0 ⟨(i 1).val, (i 1).isLt⟩)
    (hk : ∀ i : grid1.Coords, pf.atD 1 (k1_off1 i) = lit1 ⟨(i 1).val, (i 1).isLt⟩)
    (htr : ∀ i : grid1.Coords, cc1_transform_3 k1_off1_inb numel1_S1 pf i
      = ![(BitVec.ofNat 32 (i 0).val).toNat, (lit0 ⟨(i 1).val, (i 1).isLt⟩).toNat, (0#32).toNat]) :
    Sched1 a where
  le t := by
    subst hpf
    show (a.1.atD 1 (k1_off1 (grid1.coords t))).slt (a.1.atD 0 (k1_off1 (grid1.coords t))) = true
      ∨ a.1.atD 1 (k1_off1 (grid1.coords t)) = a.1.atD 0 (k1_off1 (grid1.coords t))
    rw [hk, hq]; exact lit_le _
  first h := by
    subst hpf
    show a.1.atD 1 (k1_off1 (grid1.coords ⟨0, h⟩)) = 0#32
    rw [hk]; exact lit1_first h
  noFlush t hne := by
    subst hpf
    have hne' : lit1 ⟨(grid1.coords t 1).val, (grid1.coords t 1).isLt⟩ ≠ lit0 ⟨(grid1.coords t 1).val, (grid1.coords t 1).isLt⟩ := by
      rw [← hk, ← hq]; exact hne
    obtain ⟨hlast, hsame⟩ := flush_closed t hne'
    refine flush1_3_false a t hlast fun h => ?_
    rw [index1_3, index1_3, htr, htr]
    exact hsame h

theorem sched1_adm : Sched1 (F := F) (adm 1) :=
  Sched1.of_tables (adm 1) pf₀ adm_one_val qi_word ki_word tr3_closed

end Cert.KernelIdeal.Hand

end
-- ==== Proof.Run.lean ====
import proofs.«403451_j89893665506083_3_alg».proof.Proof.Tables
import proofs.«403451_j89893665506083_3_alg».proof.Proof.Gen.KernelIdeal.Launch
import proofs.«403451_j89893665506083_3_alg».proof.Proof.Gen.KernelIdeal.Skeleton
import proofs.«403451_j89893665506083_3_alg».proof.Proof.Gen.KernelIdeal.Points
import proofs.«403451_j89893665506083_3_alg».proof.Proof.Gen.KernelIdeal.Regions
import proofs.«403451_j89893665506083_3_alg».proof.Proof.R0Body
import proofs.«403451_j89893665506083_3_alg».proof.Proof.R1Data
import proofs.«403451_j89893665506083_3_alg».proof.Proof.R1Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) (adm 1) c).arrAt w (cfg1 (F := F) (adm 1)).N
theorem W4_arr (c : Dev nD) (w : Fin (cfg1 (F := F) (adm 1)).W) :
    W4 m ρ c (Proc.devRef .tc (Pipeline.arrRef spec1 w)) = (dat1 (V3 m ρ) (adm 1) c).arrAt w (cfg1 (F := F) (adm 1)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin (cfg1 (F := F) (adm 1)).W) : (dat1 (V3 m ρ) (adm 1) c).arrAt w (cfg1 (F := F) (adm 1)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer the second host stretch does not write and that is no array of region 0 enters region 1 as the first stretch left it. -/
theorem W3_keep (c : Dev nD) (r : Ref sig .tc) (h1 : r ∉ hostOps1_W) (h0 : ∀ w, Pipeline.arrRef spec0 w ≠ r) :
    W3 m ρ c (Proc.devRef .tc r) = W1 m ρ c (Proc.devRef .tc r) :=
  (StableHlo.after_of_writes_sub hostOps1 _ hostOps1_writes h1).trans (W2_of_ne m ρ c r h0)

/-- A buffer no host stretch writes and that is no array of either region ends as launched. -/
theorem W4_keep (c : Dev nD) (r : Ref sig .tc) (h3 : ∀ w, Pipeline.arrRef spec1 w ≠ r) (h1 : r ∉ hostOps1_W)
    (h0 : ∀ w, Pipeline.arrRef spec0 w ≠ r) (hW : r ∉ hostOps0_W) :
    W4 m ρ c (Proc.devRef .tc r) = m ((c : Thread nD τ).loc r) := by
  rw [W4_of_ne m ρ c r h3, W3_keep m ρ c r h1 h0]
  exact StableHlo.after_of_writes_sub hostOps0 _ hostOps0_writes hW

theorem W4_main_v18 (c : Dev nD) :
    W4 m ρ c (Proc.devRef .tc main_v18) = (dat1 (V3 m ρ) (adm 1) c).arrAt 3 (cfg1 (F := F) (adm 1)).N :=
  W4_arr m ρ c 3

theorem tbl3 (c : Dev nD) : (fun k : Fin pre1.K => V3 m ρ c (pre1.ref k)) = (adm (F := F) 1).1 :=
  funext fun k => match k with
    | ⟨0, _⟩ => (W3_keep m ρ c main_c (by decide) (by decide)).trans (after_hostOps0_main_c _)
    | ⟨1, _⟩ => (W3_keep m ρ c main_c_0 (by decide) (by decide)).trans (after_hostOps0_main_c_0 _)
    | ⟨_ + 2, h⟩ => absurd h (by simp)

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) (adm 1) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm 1) sched1_adm c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    have hs := Pipeline.unscopedRest_split (Ix := Unit) (Name := ℕ) (U := UR sig nD τ) (Lvl := ℕ) (Val := Elt F) preFacts1 c (V3 m ρ c)
    rw [tbl3 m ρ c] at hs
    have hsp := hsplit.trans (sep_mono .rfl (Entails.of_eq hs))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) (adm 1) c
  hout c := by
    rw [Pipeline.ownSems0_none]
    refine (hout1 (V3 m ρ) (adm 1) c).trans ?_
    iintro ⟨HY, Hs⟩
    isplitl [HY]; · iexact HY
    isplitr; · iempintro
    iexact Hs
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (F := F) (adm 1)).N) (hF1 m ρ c) (hrest1 m ρ c)
    rw [Pipeline.unscopedBufs_held] at hjoin
    have hs := Pipeline.unscopedRest_split (Ix := Unit) (Name := ℕ) (U := UR sig nD τ) (Lvl := ℕ) (Val := Elt F) preFacts1 c (V3 m ρ c)
    rw [tbl3 m ρ c] at hs
    have hjn := (sep_mono .rfl (Entails.of_eq hs.symm)).trans hjoin
    iintro ⟨Ha, HO, ⟨HY, Hpf⟩, Hrest⟩
    imodintro
    isplitl [Ha Hrest HY Hpf]
    · isplitl [Ha Hrest Hpf]
      · iapply hjn
        isplitl [Ha]; · iexact Ha
        isplitl [Hpf]; · iexact Hpf
        iexact Hrest
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with its value: the result buffer ends at what region 1 leaves in its output array, the arguments as launched. -/
theorem run_val : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v18 (by decide)),
    (h c _ (mem_uc main_arg0 (by decide))).trans (W4_keep m ρ c main_arg0 (by decide) (by decide) (by decide) (by decide)),
    (h c _ (mem_uc main_arg1 (by decide))).trans (W4_keep m ρ c main_arg1 (by decide) (by decide) (by decide) (by decide)),
    (h c _ (mem_uc main_arg2 (by decide))).trans (W4_keep m ρ c main_arg2 (by decide) (by decide) (by decide) (by decide)),
    (h c _ (mem_uc main_arg3 (by decide))).trans (W4_keep m ρ c main_arg3 (by decide) (by decide) (by decide) (by decide)),
    (h c _ (mem_uc main_arg4 (by decide))).trans (W4_keep m ρ c main_arg4 (by decide) (by decide) (by decide) (by decide)),
    (h c _ (mem_uc main_arg5 (by decide))).trans (W4_keep m ρ c main_arg5 (by decide) (by decide) (by decide) (by decide)),
    (h c _ (mem_uc main_arg6 (by decide))).trans (W4_keep m ρ c main_arg6 (by decide) (by decide) (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.KernelIdeal.Hand

end
-- ==== Proof.LibRows.lean ====
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.Lib.StackMember
import Idealize.ShloMosaic.PureOps.Ideal.Laws

noncomputable section

namespace Idealize.ShloMosaic.Rows

open Idealize.ShloMosaic Idealize.ShloMosaic.ValueIdx

variable {N K M : ℕ}

theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) :=
  StackMember.dotGeneral_plain_apply none l r i j

-- The contraction sum of a plain matrix product is the sum over the contracted coordinate.
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) :=
  (Ideal.dotGeneral_apply _ none .single l r (ix2 i j)).symm.trans (dotGeneral_plain_apply l r i j)

theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

end Idealize.ShloMosaic.Rows

end
-- ==== Proof.LibDotT.lean ====
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

-- a · wᵀ with w stored one row per output feature: entry (i, j) is ∑ₖ a (i, k) · w (j, k).
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul _ none l r _ (ix2 i j) = _
  rw [Ideal.matmul_constant_zero_apply, ← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 _ K rfl rfl).symm k) = ix2 i k :=
    funext fun a => Fin.ext (match a with | ⟨0, _⟩ => rfl | ⟨1, _⟩ => hk)
  have er : (DotDims.transposedRhs N K M).rhsIdx (ix2 i j) ((contrEquiv1 _ K rfl rfl).symm k) = ix2 j k :=
    funext fun a => Fin.ext (match a with | ⟨0, _⟩ => rfl | ⟨1, _⟩ => hk)
  rw [el, er]

end Idealize.ShloMosaic.Rows

end
-- ==== Proof.LibDense.lean ====
import Idealize.ShloMosaic.Lib.StackMember
import Idealize.ShloMosaic.PureOps.Ideal.Laws

noncomputable section

namespace Cert.Lib

open Idealize.ShloMosaic Idealize.ShloMosaic.ValueIdx

-- A plain product into the zero accumulator: entry (p, q) is ∑ₖ l (p, k) · r (k, q).
theorem matmul_plain_apply {M K N : ℕ} {φ₁ φ₂ : FTy} (l : FVec Ideal ⟨2, ![M, K]⟩ φ₁) (r : FVec Ideal ⟨2, ![K, N]⟩ φ₂) (p : Fin M) (q : Fin N) :
    matmul (DotDims.plain M K N) none l r (constant ⟨2, ![M, N]⟩ .f32 0x00000000#32) (ix2 p q)
      = ∑ k : Fin K, l (ix2 p k) * r (ix2 k q) :=
  (Ideal.matmul_constant_zero_apply _ none l r _).trans
    ((Ideal.dotGeneral_apply _ none default l r _).symm.trans (StackMember.dotGeneral_plain_apply none l r p q))

end Cert.Lib

end
-- ==== Proof.R1Step.lean ====
import proofs.«403451_j89893665506083_3_alg».proof.Proof.Gen.KernelIdeal.Skeleton
import proofs.«403451_j89893665506083_3_alg».proof.Proof.Spec
import proofs.«403451_j89893665506083_3_alg».proof.Proof.LibRows
import proofs.«403451_j89893665506083_3_alg».proof.Proof.LibDotT
import proofs.«403451_j89893665506083_3_alg».proof.Proof.LibDense
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Val

open Idealize.ShloMosaic Idealize.ShloMosaic.ValueIdx Cert.KernelIdeal Cert.KernelIdeal.Gen Cert.Attn

section Layout
variable {α : Type}

-- A column [a, 1] broadcast along its rows reads, at (i, j), the column's entry of row i.
theorem bcol_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h (ix2 i j) (ix2 i (0 : Fin 1)) (by
    intro c
    match c with
    | ⟨0, _⟩ =>
      show i.val = if a = 1 then 0 else i.val
      split
      · have := i.isLt; omega
      · rfl
    | ⟨1, _⟩ => rfl)

theorem ucol_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ValueIdx.ix1 i) :=
  shapeCast_apply x h (ix2 i u) (ValueIdx.ix1 i) (by
    rw [Shape.rowMajor_val_two, Shape.rowMajor_val_one]
    show i.val = i.val * 1 + u.val
    have := u.isLt; omega)

end Layout

theorem neg_big_eq :
    Named.named (F := Ideal) Cert.KernelIdeal.κ "neg_big" (φ := .f32) 0xFF333332#32 = (⊥ : EReal) :=
  IdealRules.named_const.ideal_named_scalar _ _ _ _ rfl

theorem neg_inf_word : Ideal.ofBits .f32 0xFF800000#32 = (⊥ : EReal) := by simp [Ideal.ofBits, Ideal.ieee]

theorem rowmax_apply (x : FVec Ideal S512x512 .f32) (h : S512x512.Reduces [1] S512) (sc : S512.ShapeCasts S512x1)
    (i : Fin 512) (u : Fin 1) :
    shapeCast S512x1 (multiReduction .maximumf [1] S512 x 0xFF800000#32 h (.inl rfl) rfl) sc (ix2 i u)
      = Finset.univ.sup fun j : Fin 512 => (x (ix2 i j) : EReal) := by
  refine (ucol_apply _ sc i u).trans ?_
  refine (Ideal.multiReduction_maximumf_single x _ h (.inl rfl) rfl (ValueIdx.ix1 i)).trans ?_
  show (Finset.univ : Finset (Fin 512)).fold max (Ideal.ofBits .f32 0xFF800000#32) (x ∘ h.lift (ValueIdx.ix1 i)) = _
  rw [neg_inf_word, show (x ∘ h.lift (ValueIdx.ix1 i)) = fun j : Fin 512 => (x (ix2 i j) : EReal) from
    funext fun k => congrArg x (Rows.lift_ix1 h i k)]
  rfl

theorem rowsum_apply (x : FVec Ideal S512x512 .f32) (h : S512x512.Reduces [1] S512) (sc : S512.ShapeCasts S512x1)
    (i : Fin 512) (u : Fin 1) :
    shapeCast S512x1 (multiReduction .add [1] S512 x 0x00000000#32 h (.inl rfl) rfl) sc (ix2 i u)
      = ∑ j : Fin 512, (x (ix2 i j) : EReal) := by
  refine (ucol_apply _ sc i u).trans ?_
  refine (Ideal.multiReduction_add_single x _ h (.inl rfl) rfl (ValueIdx.ix1 i)).trans ?_
  exact Finset.sum_congr rfl fun k _ => congrArg x (Rows.lift_ix1 h i k)

def sco (xq xk : Vec Ideal S1x512x1024 .bf16) (i j : Fin 512) : EReal :=
  ∑ e : Fin 1024, (xq (ix3 (0 : Fin 1) i e) : EReal) * (xk (ix3 (0 : Fin 1) j e) : EReal)

-- The score under the causal mask: kept where the key's position 512 k + j does not exceed the query's 512 q + i.
def scoM (q k : ℕ) (xq xk : Vec Ideal S1x512x1024 .bf16) (i j : Fin 512) : EReal :=
  if 512 * k + j.val ≤ 512 * q + i.val then sco xq xk i j else ⊥

def vcol (xv : Vec Ideal S1x512x1024 .bf16) (d : Fin 1024) : Fin 512 → EReal :=
  fun j => (xv (ix3 (0 : Fin 1) j d) : EReal)

-- The running state (maximum, sum, weighted sum) of local row i for output column d.
def stAt (m l : Vec Ideal S512x1 .f32) (acc : Vec Ideal S512x1024 .f32) (i : Fin 512) (d : Fin 1024) : St :=
  ⟨(m (ix2 i (0 : Fin 1)) : EReal), (l (ix2 i (0 : Fin 1)) : EReal), (acc (ix2 i d) : EReal)⟩

theorem pay8_apply (xq xk : Vec Ideal S1x512x1024 .bf16) (i j : Fin 512) :
    k1_pay8 (F := Ideal) xq xk (ix2 i j) = sco xq xk i j := by
  unfold k1_pay8
  refine (Rows.matmul_trhs_apply (N := 512) (K := 1024) (M := 512) _ _ i j).trans ?_
  exact Finset.sum_congr rfl fun e _ =>
    congrArg₂ (· * ·) (shapeCast_1ab_ab_apply xq _ i e) (shapeCast_1ab_ab_apply xk _ j e)

theorem St.mk_congr {a a' b b' c c' : EReal} (ha : a = a') (hb : b = b') (hc : c = c') :
    St.mk a b c = St.mk a' b' c' := by subst ha hb hc; rfl

-- The new maximum, the rescaling factor and the new weights a point computes from a scores tile x and the maximum so far.
def tileM (x : FVec Ideal S512x512 .f32) (m : Vec Ideal S512x1 .f32) : FVec Ideal S512x1 .f32 :=
  maximumf m (shapeCast S512x1 (multiReduction .maximumf [1] S512 x 0xFF800000#32 reduces_S512x512_S512 (.inl rfl) rfl) shapeCasts_S512_S512x1)
def tileA (x : FVec Ideal S512x512 .f32) (m : Vec Ideal S512x1 .f32) : FVec Ideal S512x1 .f32 :=
  exp (subf m (tileM x m))
def tileP (x : FVec Ideal S512x512 .f32) (m : Vec Ideal S512x1 .f32) : FVec Ideal S512x512 .f32 :=
  exp (subf x (broadcastTo S512x512 (tileM x m) broadcasts_S512x1_S512x512))

-- Whatever the scores tile, the update of (maximum, sum, weighted sum) at (i, d) is one tile step of the running form on row i of the tile.
theorem step_tile (x : FVec Ideal S512x512 .f32) (s : Fin 512 → EReal) (i : Fin 512) (hx : ∀ j, x (ix2 i j) = s j)
    (xv : Vec Ideal S1x512x1024 .bf16) (m l : Vec Ideal S512x1 .f32) (acc : Vec Ideal S512x1024 .f32) (d : Fin 1024) :
    stAt (shapeCast S512x1 (tileM x m) shapeCasts_S512x1_S512x1)
        (shapeCast S512x1 (addf (mulf (tileA x m) l) (shapeCast S512x1
          (multiReduction .add [1] S512 (tileP x m) 0x00000000#32 reduces_S512x512_S512 (.inl rfl) rfl) shapeCasts_S512_S512x1))
          shapeCasts_S512x1_S512x1)
        (shapeCast S512x1024 (addf (mulf (broadcastTo S512x1024 (tileA x m) broadcasts_S512x1_S512x1024) acc)
          (matmul dot_S512x512_S512x1024_S512x1024_1_0_0_1_n_n none (truncf .bf16 (tileP x m) bitsLt_bf16_f32)
            (shapeCast S512x1024 xv shapeCasts_S1x512x1024_S512x1024 : FVec Ideal S512x1024 .bf16) (constant S512x1024 .f32 0x00000000#32)))
          shapeCasts_S512x1024_S512x1024) i d
      = (stAt m l acc i d).step s (vcol xv d) := by
  have hM : tileM x m (ix2 i (0 : Fin 1)) = max (m (ix2 i (0 : Fin 1)) : EReal) (Finset.univ.sup s) :=
    congrArg (max (m (ix2 i (0 : Fin 1)) : EReal)) ((rowmax_apply x _ _ i 0).trans (congrArg _ (funext hx)))
  have hA : tileA x m (ix2 i (0 : Fin 1)) = Ideal.exp ((m (ix2 i (0 : Fin 1)) : EReal) - max (m (ix2 i (0 : Fin 1)) : EReal) (Finset.univ.sup s)) :=
    congrArg (fun b : EReal => Ideal.exp ((m (ix2 i (0 : Fin 1)) : EReal) - b)) hM
  have hP (j : Fin 512) : tileP x m (ix2 i j) = Ideal.exp (s j - max (m (ix2 i (0 : Fin 1)) : EReal) (Finset.univ.sup s)) :=
    congrArg₂ (fun a b : EReal => Ideal.exp (a - b)) (hx j) ((bcol_apply (tileM x m) _ i j).trans hM)
  refine St.mk_congr ((congrFun (shapeCast_self _ _) _).trans hM) ((congrFun (shapeCast_self _ _) _).trans ?_)
    ((congrFun (shapeCast_self _ _) _).trans ?_)
  · exact congrArg₂ (fun a b : EReal => a * (l (ix2 i (0 : Fin 1)) : EReal) + b) hA
      ((rowsum_apply (tileP x m) _ _ i 0).trans (Finset.sum_congr rfl fun j _ => hP j))
  · exact congrArg₂ (fun a b : EReal => a * (acc (ix2 i d) : EReal) + b) ((bcol_apply (tileA x m) _ i d).trans hA)
      ((Cert.Lib.matmul_plain_apply (M := 512) (K := 512) (N := 1024) _ _ i d).trans (Finset.sum_congr rfl fun j _ => congrArg₂ (· * ·) (hP j) (shapeCast_1ab_ab_apply xv _ j d)))

theorem step_off (xq xk xv : Vec Ideal S1x512x1024 .bf16) (m l : Vec Ideal S512x1 .f32)
    (acc : Vec Ideal S512x1024 .f32) (i : Fin 512) (d : Fin 1024) :
    stAt (k1_pay4 (k1_pay9 (F := Ideal) xq xk m)) (k1_pay12 (F := Ideal) xq xk m l)
        (k1_pay13 (F := Ideal) xq xk m acc xv) i d
      = (stAt m l acc i d).step (fun j => sco xq xk i j) (vcol xv d) :=
  step_tile (k1_pay8 xq xk) (sco xq xk i) i (pay8_apply xq xk i) xv m l acc d

theorem pos_word (t : ℕ) (x : Fin 512) :
    IntOp.addi (Scalar.muli (BitVec.ofNat 32 t) 512#32) (BitVec.ofNat 32 x.val) = BitVec.ofNat 32 (512 * t + x.val) := by
  show BitVec.ofNat 32 t * BitVec.ofNat 32 512 + BitVec.ofNat 32 x.val = _
  rw [← BitVec.ofNat_mul, ← BitVec.ofNat_add, Nat.mul_comm]

theorem toInt_small (n : ℕ) (hn : n < 2048) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

-- The mask's bit at (i, j) is set where the key's position does not exceed the query's.
theorem mask_bit (q k : ℕ) (hq : q < 4) (hk : k < 4) (i j : Fin 512) :
    IntOp.cmpi .sge (IntOp.addi (Scalar.muli (BitVec.ofNat 32 q) 512#32) (BitVec.ofNat 32 i.val))
        (IntOp.addi (Scalar.muli (BitVec.ofNat 32 k) 512#32) (BitVec.ofNat 32 j.val))
      = if 512 * k + j.val ≤ 512 * q + i.val then 1#1 else 0#1 := by
  rw [pos_word, pos_word]
  show BitVec.ofBool ((BitVec.ofNat 32 (512 * k + j.val)).sle (BitVec.ofNat 32 (512 * q + i.val))) = _
  have hi := i.isLt
  have hj := j.isLt
  rw [BitVec.sle_eq_decide, toInt_small _ (by omega), toInt_small _ (by omega)]
  by_cases h : 512 * k + j.val ≤ 512 * q + i.val
  · rw [if_pos h, decide_eq_true (by exact_mod_cast h)]; rfl
  · rw [if_neg h, decide_eq_false (by exact_mod_cast h)]; rfl

theorem pay14_apply (v1 v3 : Elt Ideal .i32) (q k : ℕ) (hq : q < 4) (hk : k < 4)
    (h1 : v1 = BitVec.ofNat 32 q) (h3 : v3 = BitVec.ofNat 32 k)
    (xq xk : Vec Ideal S1x512x1024 .bf16) (i j : Fin 512) :
    k1_pay14 (F := Ideal) v1 v3 xq xk (ix2 i j) = scoM q k xq xk i j := by
  subst h1 h3
  show Scalar.select (IntOp.cmpi .sge (IntOp.addi _ (iota .tc S512x512 32 [0] iota_S512x512_d0_w32 (ix2 i j)))
      (IntOp.addi _ (iota .tc S512x512 32 [1] iota_S512x512_d1_w32 (ix2 i j)))) (k1_pay8 (F := Ideal) xq xk (ix2 i j))
      (Named.named (F := Ideal) Cert.KernelIdeal.κ "neg_big" (φ := .f32) 0xFF333332#32) = _
  rw [iota_single_apply, iota_single_apply, neg_big_eq, pay8_apply]
  refine (congrArg (Scalar.select · _ _) (mask_bit q k hq hk i j)).trans ?_
  unfold scoM
  by_cases h : 512 * k + j.val ≤ 512 * q + i.val
  · rw [if_pos h, if_pos h]; exact select_one _ _
  · rw [if_neg h, if_neg h]; exact select_zero _ _

theorem step_diag (v1 v3 : Elt Ideal .i32) (q k : ℕ) (hq : q < 4) (hk : k < 4)
    (h1 : v1 = BitVec.ofNat 32 q) (h3 : v3 = BitVec.ofNat 32 k)
    (xq xk xv : Vec Ideal S1x512x1024 .bf16) (m l : Vec Ideal S512x1 .f32)
    (acc : Vec Ideal S512x1024 .f32) (i : Fin 512) (d : Fin 1024) :
    stAt (k1_pay6 (k1_pay15 (F := Ideal) v1 v3 xq xk m)) (k1_pay18 (F := Ideal) v1 v3 xq xk m l)
        (k1_pay5 (k1_pay19 (F := Ideal) v1 v3 xq xk m acc) (k1_pay20 (F := Ideal) v1 v3 xq xk m) xv) i d
      = (stAt m l acc i d).step (fun j => scoM q k xq xk i j) (vcol xv d) :=
  step_tile (k1_pay14 v1 v3 xq xk) (scoM q k xq xk i) i (pay14_apply v1 v3 q k hq hk h1 h3 xq xk i) xv m l acc d

-- The diagonal point's output block at (i, d) is the weighted sum divided by the sum.
theorem pay7_apply (acc : Vec Ideal S512x1024 .f32) (l : Vec Ideal S512x1 .f32) (i : Fin 512) (d : Fin 1024) :
    k1_pay7 (F := Ideal) acc l (ix3 (0 : Fin 1) i d)
      = Ideal.div (acc (ix2 i d) : EReal) (l (ix2 i (0 : Fin 1)) : EReal) := by
  unfold k1_pay7
  refine (shapeCast_ab_1ab_apply _ _ (0 : Fin 1) i d).trans ?_
  exact congrArg (Ideal.div (acc (ix2 i d) : EReal)) (bcol_apply l _ i d)

-- The reset values are the running form's start.
theorem init_state (i : Fin 512) (d : Fin 1024) :
    stAt (k1_pay1 (F := Ideal)) (k1_pay2 (F := Ideal)) (k1_pay3 (F := Ideal)) i d = St.init := by
  unfold k1_pay1 k1_pay2 k1_pay3
  refine St.mk_congr ((congrFun (shapeCast_self _ _) _).trans ?_) ((congrFun (shapeCast_self _ _) _).trans ?_)
    ((congrFun (shapeCast_self _ _) _).trans ?_)
  exacts [neg_big_eq, Ideal.ofBits_zero_f32, Ideal.ofBits_zero_f32]

def pos (q : Fin 4) (i : Fin 512) : Fin 2048 := ⟨512 * q.val + i.val, by omega⟩

end Cert.KernelIdeal.Val

end
-- ==== Proof.R1Tiles.lean ====
import proofs.«403451_j89893665506083_3_alg».proof.Proof.Spec
import proofs.«403451_j89893665506083_3_alg».proof.Proof.LibOnlineSoftmax

noncomputable section

namespace Cert.Attn

open Idealize.ShloMosaic

-- A row of real scores masked at r is real up to column r and -∞ beyond, so its running form read after r's own tile is its attention value.
theorem online_masked (S0 v : Fin 2048 → EReal) (r : Fin 2048) (hS : ∀ c, ∃ x : ℝ, S0 c = (x : EReal))
    (hv : ∀ c, ∃ x : ℝ, v c = (x : EReal)) (q : ℕ) (hq : r.val / 512 = q) :
    Idealize.ShloMosaic.Ideal.div (foldTo (masked S0 r) v (q + 1)).a (foldTo (masked S0 r) v (q + 1)).l = attnRow (masked S0 r) v :=
  hq ▸ online_eq (masked S0 r) v r (fun c hc => (hS c).imp fun _ hx => (if_pos hc).trans hx) (fun c hc => if_neg (by omega)) hv

end Cert.Attn

end
-- ==== Proof.R1Cover.lean ====
import proofs.«403451_j89893665506083_3_alg».proof.Proof.R1Data
import proofs.«403451_j89893665506083_3_alg».proof.Proof.Tables
import Idealize.ShloMosaic.Lib.Pipeline.Value
import Idealize.ShloMosaic.Lib.Pipeline.Dat
import Idealize.ShloMosaic.Lib.ValueIdx

set_option maxRecDepth 16384

noncomputable section

namespace Cert.KernelIdeal.Val

open Idealize.ShloMosaic Idealize.ShloMosaic.TcCoe Idealize.SL.Sem Idealize.ShloMosaic.ValueIdx Cert.KernelIdeal Cert.KernelIdeal.Gen Cert.KernelIdeal.Hand
open Idealize.ShloMosaic.Pipeline (Dat)

namespace Cover

abbrev A₁ : (pcfg1 (F := Ideal)).Adm := adm (F := Ideal) 1

theorem N_eq : (cfg1 A₁).N = 40 := by decide

def qT (n : ℕ) : ℕ := (lit0 ⟨n % 10, Nat.mod_lt _ (by decide)⟩).toNat
def kT (n : ℕ) : ℕ := (lit1 ⟨n % 10, Nat.mod_lt _ (by decide)⟩).toNat

-- Each batch walks the lower triangle of 4 × 4 tiles row by row: a point whose key tile is not the first continues the point before it.
theorem sched_nat : ∀ n, n < 40 → qT n < 4 ∧ kT n ≤ qT n ∧
    (kT n ≠ 0 → (n - 1) / 10 = n / 10 ∧ qT (n - 1) = qT n ∧ kT (n - 1) + 1 = kT n) := by
  decide

def dgT (b q : ℕ) : ℕ := 10 * b + q * (q + 3) / 2

-- The diagonal point of query tile q in batch b.
theorem dgT_facts : ∀ b, b < 4 → ∀ q, q < 4 → dgT b q < 40 ∧ dgT b q / 10 = b ∧ qT (dgT b q) = q ∧ kT (dgT b q) = q := by
  decide

theorem words_facts : ∀ t : Fin (cfg1 A₁).N, qiW (F := Ideal) A₁.1 (grid1.coords t) = BitVec.ofNat 32 (qT t.val)
    ∧ kiW (F := Ideal) A₁.1 (grid1.coords t) = BitVec.ofNat 32 (kT t.val) := by
  decide +kernel

-- At a point the query and output blocks sit at (batch, query tile, 0), the key and value blocks at (batch, key tile, 0).
theorem idx_facts : ∀ t : Fin (cfg1 A₁).N,
    (((cfg1 A₁).win 0).index t 0 = t.val / 10 ∧ ((cfg1 A₁).win 0).index t 1 = qT t.val ∧ ((cfg1 A₁).win 0).index t 2 = 0)
    ∧ (((cfg1 A₁).win 1).index t 0 = t.val / 10 ∧ ((cfg1 A₁).win 1).index t 1 = kT t.val ∧ ((cfg1 A₁).win 1).index t 2 = 0)
    ∧ (((cfg1 A₁).win 2).index t 0 = t.val / 10 ∧ ((cfg1 A₁).win 2).index t 1 = kT t.val ∧ ((cfg1 A₁).win 2).index t 2 = 0)
    ∧ ((cfg1 A₁).win 3).index t 0 = t.val / 10 ∧ ((cfg1 A₁).win 3).index t 1 = qT t.val ∧ ((cfg1 A₁).win 3).index t 2 = 0 := by
  decide +kernel

theorem flush3_facts : ∀ t : Fin (cfg1 A₁).N, ((cfg1 A₁).win 3).flush t = decide (kT t.val = qT t.val) := by
  decide +kernel

theorem mem_blk3 (t : Fin (cfg1 A₁).N) (i : S4x2048x1024.Idx) :
    i ∈ (((cfg1 A₁).win 3).blk t).view.set ↔ ∀ ax : Fin 3, ((cfg1 A₁).win 3).index t ax * S1x512x1024.size ax ≤ (i ax).val
      ∧ (i ax).val < ((cfg1 A₁).win 3).index t ax * S1x512x1024.size ax + S1x512x1024.size ax := by
  show i ∈ ((View.whole main_v18).slice (((cfg1 A₁).win 3).rect t)).set ↔ _
  rw [View.set_slice_whole, Rect.mem_set_unit]
  exact Iff.rfl

-- Every index of the array lies in the block of the diagonal point of its batch and row tile.
theorem cover3 (i : S4x2048x1024.Idx) :
    ∃ t : Fin (cfg1 A₁).N, ((cfg1 A₁).win 3).flush t = true ∧ i ∈ (((cfg1 A₁).win 3).blk t).view.set := by
  have h0 : (i 0).val < 4 := (i 0).isLt
  have h1 : (i 1).val < 2048 := (i 1).isLt
  have h2 : (i 2).val < 1024 := (i 2).isLt
  obtain ⟨hlt, hb, hq, hk⟩ := dgT_facts (i 0).val h0 ((i 1).val / 512) (by omega)
  refine ⟨⟨dgT (i 0).val ((i 1).val / 512), by rw [N_eq]; exact hlt⟩, ?_, ?_⟩
  · rw [flush3_facts]; exact decide_eq_true (hk.trans hq.symm)
  · rw [mem_blk3]
    obtain ⟨-, -, -, e0, e1, e2⟩ := idx_facts ⟨dgT (i 0).val ((i 1).val / 512), by rw [N_eq]; exact hlt⟩
    intro ax
    match ax with
    | ⟨0, _⟩ =>
      show ((cfg1 A₁).win 3).index _ 0 * 1 ≤ (i 0).val ∧ (i 0).val < ((cfg1 A₁).win 3).index _ 0 * 1 + 1
      rw [e0]; show dgT _ _ / 10 * 1 ≤ _ ∧ _ < dgT _ _ / 10 * 1 + 1; omega
    | ⟨1, _⟩ =>
      show ((cfg1 A₁).win 3).index _ 1 * 512 ≤ (i 1).val ∧ (i 1).val < ((cfg1 A₁).win 3).index _ 1 * 512 + 512
      rw [e1]; show qT (dgT _ _) * 512 ≤ _ ∧ _ < qT (dgT _ _) * 512 + 512; omega
    | ⟨2, _⟩ =>
      show ((cfg1 A₁).win 3).index _ 2 * 1024 ≤ (i 2).val ∧ (i 2).val < ((cfg1 A₁).win 3).index _ 2 * 1024 + 1024
      rw [e2]; omega

end Cover

variable (V : (c : Dev nD) → (b : Ref sig .tc) → Buf (Elt Ideal) ((c : Thread nD τ).loc b))

-- The sixteen diagonal points' blocks tile the output array: if each holds its block of G, the array is G.
theorem arrAt3_eq (c : Dev nD) (G : S4x2048x1024.Idx → EReal)
    (hblk : ∀ (t : Fin (cfg1 Cover.A₁).N) (h : t.val < 40), Cover.kT t.val = Cover.qT t.val → ∀ (i : Fin 512) (d : Fin 1024),
      (outsAt1 V Cover.A₁ c t.val t.isLt).1 (ix3 (0 : Fin 1) i d)
        = G (ix3 (⟨t.val / 10, by omega⟩ : Fin 4)
            (⟨512 * Cover.qT t.val + i.val, by have := (Cover.sched_nat _ h).1; omega⟩ : Fin 2048) d)) :
    (dat1 V Cover.A₁ c).arrAt 3 (cfg1 Cover.A₁).N = G := by
  refine (dat1 V Cover.A₁ c).arrAt_eq_of_cover 3 G (fun t hf => ?_) Cover.cover3
  show ((cfg1 Cover.A₁).win 3).cut (grid1.coords t) ((dat1 V Cover.A₁ c).after 3 t) = _
  rw [after1_3]
  have h40 : t.val < 40 := t.isLt.trans_eq Cover.N_eq
  have hq4 := (Cover.sched_nat _ h40).1
  obtain ⟨-, -, -, e0, e1, e2⟩ := Cover.idx_facts t
  funext j
  have hj0 : (j 0).val < 1 := (j 0).isLt
  have hj1 : (j 1).val < 512 := (j 1).isLt
  have hL : ((cfg1 Cover.A₁).win 3).xinj (grid1.coords t) j
      = ix3 (0 : Fin 1) (⟨(j 1).val, (j 1).isLt⟩ : Fin 512) (⟨(j 2).val, (j 2).isLt⟩ : Fin 1024) := by
    funext ax; apply Fin.ext
    match ax with
    | ⟨0, _⟩ => show (j 0).val = 0; omega
    | ⟨1, _⟩ => rfl
    | ⟨2, _⟩ => rfl
  have hR : (((cfg1 Cover.A₁).win 3).blk t).view.emb j
      = ix3 (⟨t.val / 10, by omega⟩ : Fin 4) (⟨512 * Cover.qT t.val + (j 1).val, by omega⟩ : Fin 2048)
          (⟨(j 2).val, (j 2).isLt⟩ : Fin 1024) := by
    funext ax; apply Fin.ext
    match ax with
    | ⟨0, _⟩ => show ((cfg1 Cover.A₁).win 3).index t 0 * 1 + 1 * (j 0).val = t.val / 10; omega
    | ⟨1, _⟩ => show ((cfg1 Cover.A₁).win 3).index t 1 * 512 + 1 * (j 1).val = 512 * Cover.qT t.val + (j 1).val; omega
    | ⟨2, _⟩ => show ((cfg1 Cover.A₁).win 3).index t 2 * 1024 + 1 * (j 2).val = (j 2).val; omega
  show (outsAt1 V Cover.A₁ c t.val t.isLt).1 (((cfg1 Cover.A₁).win 3).xinj (grid1.coords t) j)
    = G ((((cfg1 Cover.A₁).win 3).blk t).view.emb j)
  rw [hL, hR]
  exact hblk t h40 (of_decide_eq_true ((Cover.flush3_facts t).symm.trans hf)) ⟨(j 1).val, (j 1).isLt⟩ ⟨(j 2).val, (j 2).isLt⟩

end Cert.KernelIdeal.Val

end
-- ==== Proof.R1Value.lean ====
import proofs.«403451_j89893665506083_3_alg».proof.Proof.R1Data
import proofs.«403451_j89893665506083_3_alg».proof.Proof.Tables
import proofs.«403451_j89893665506083_3_alg».proof.Proof.R1Step
import proofs.«403451_j89893665506083_3_alg».proof.Proof.LibOnlineSoftmax
import proofs.«403451_j89893665506083_3_alg».proof.Proof.R1Tiles
import proofs.«403451_j89893665506083_3_alg».proof.Proof.R1Cover
import Idealize.ShloMosaic.Lib.Pipeline.Value

noncomputable section

namespace Cert.KernelIdeal.Val

open Idealize.ShloMosaic Idealize.ShloMosaic.ValueIdx Cert.KernelIdeal Cert.KernelIdeal.Gen Cert.KernelIdeal.Hand Cert.Attn
open Idealize.ShloMosaic.TcCoe
open Idealize.ShloMosaic.Pipeline (Dat)

variable (V : (c : Dev nD) → (b : Ref sig .tc) → Buf (Elt Ideal) ((c : Thread nD τ).loc b)) (c : Dev nD)

def qA : Act := fun bi r e => (V c (Pipeline.arrRef spec1 0) : S4x2048x1024.Idx → EReal) (ix3 bi r e)
def kA : Act := fun bi r e => (V c (Pipeline.arrRef spec1 1) : S4x2048x1024.Idx → EReal) (ix3 bi r e)
def vA : Act := fun bi r e => (V c (Pipeline.arrRef spec1 2) : S4x2048x1024.Idx → EReal) (ix3 bi r e)

-- The masked scores of the query at local row i of tile q, batch b, against every key position.
def Srow (b q : Fin 4) (i : Fin 512) : Fin 2048 → EReal :=
  masked (fun c' => dotRow (qA V c) (kA V c) b (pos q i) c') (pos q i)
def vrow (b : Fin 4) (d : Fin 1024) : Fin 2048 → EReal := fun c' => vA V c b c' d

theorem lt40 (t : Fin (cfg1 Cover.A₁).N) : t.val < 40 := Nat.lt_of_lt_of_eq t.isLt Cover.N_eq

def bT (t : Fin (cfg1 Cover.A₁).N) : Fin 4 := ⟨t.val / 10, by have := lt40 t; omega⟩
def qT (t : Fin (cfg1 Cover.A₁).N) : Fin 4 := ⟨Cover.qT t.val, (Cover.sched_nat t.val (lt40 t)).1⟩
def kT (t : Fin (cfg1 Cover.A₁).N) : Fin 4 := ⟨Cover.kT t.val, by have := Cover.sched_nat t.val (lt40 t); omega⟩

abbrev xqB (t : Fin (cfg1 Cover.A₁).N) : Vec Ideal S1x512x1024 .bf16 := iblk1 V Cover.A₁ c 0 t
abbrev xkB (t : Fin (cfg1 Cover.A₁).N) : Vec Ideal S1x512x1024 .bf16 := iblk1 V Cover.A₁ c 1 t
abbrev xvB (t : Fin (cfg1 Cover.A₁).N) : Vec Ideal S1x512x1024 .bf16 := iblk1 V Cover.A₁ c 2 t

-- A point's three input blocks are rows 512 q, … of its batch of the queries, rows 512 k, … of the keys and of the values.
theorem iblk_apply (t : Fin (cfg1 Cover.A₁).N) (i : Fin 512) (e : Fin 1024) :
    (iblk1 V Cover.A₁ c 0 t : Vec Ideal S1x512x1024 .bf16) (ix3 (0 : Fin 1) i e) = qA V c (bT t) (pos (qT t) i) e
    ∧ (iblk1 V Cover.A₁ c 1 t : Vec Ideal S1x512x1024 .bf16) (ix3 (0 : Fin 1) i e) = kA V c (bT t) (pos (kT t) i) e
    ∧ (iblk1 V Cover.A₁ c 2 t : Vec Ideal S1x512x1024 .bf16) (ix3 (0 : Fin 1) i e) = vA V c (bT t) (pos (kT t) i) e := by
  have hI := Cover.idx_facts t
  unfold iblk1
  rw [View.read_apply, View.read_apply, View.read_apply]
  refine ⟨congrArg (V c (Pipeline.arrRef spec1 0)) (funext fun a => Fin.ext ?_),
    congrArg (V c (Pipeline.arrRef spec1 1)) (funext fun a => Fin.ext ?_),
    congrArg (V c (Pipeline.arrRef spec1 2)) (funext fun a => Fin.ext ?_)⟩
  · match a with
    | ⟨0, _⟩ => show ((cfg1 Cover.A₁).win 0).index t 0 * 1 + 1 * 0 = t.val / 10; omega
    | ⟨1, _⟩ => show ((cfg1 Cover.A₁).win 0).index t 1 * 512 + 1 * i.val = 512 * Cover.qT t.val + i.val; omega
    | ⟨2, _⟩ => show ((cfg1 Cover.A₁).win 0).index t 2 * 1024 + 1 * e.val = e.val; omega
  · match a with
    | ⟨0, _⟩ => show ((cfg1 Cover.A₁).win 1).index t 0 * 1 + 1 * 0 = t.val / 10; omega
    | ⟨1, _⟩ => show ((cfg1 Cover.A₁).win 1).index t 1 * 512 + 1 * i.val = 512 * Cover.kT t.val + i.val; omega
    | ⟨2, _⟩ => show ((cfg1 Cover.A₁).win 1).index t 2 * 1024 + 1 * e.val = e.val; omega
  · match a with
    | ⟨0, _⟩ => show ((cfg1 Cover.A₁).win 2).index t 0 * 1 + 1 * 0 = t.val / 10; omega
    | ⟨1, _⟩ => show ((cfg1 Cover.A₁).win 2).index t 1 * 512 + 1 * i.val = 512 * Cover.kT t.val + i.val; omega
    | ⟨2, _⟩ => show ((cfg1 Cover.A₁).win 2).index t 2 * 1024 + 1 * e.val = e.val; omega

theorem sco_eq (t : Fin (cfg1 Cover.A₁).N) (i j : Fin 512) :
    sco (xqB V c t) (xkB V c t) i j = dotRow (qA V c) (kA V c) (bT t) (pos (qT t) i) (pos (kT t) j) := by
  unfold sco dotRow
  exact Finset.sum_congr rfl fun e _ => congrArg₂ (· * ·) (iblk_apply V c t i e).1 (iblk_apply V c t j e).2.1

-- The masked scores of a point are the point's key tile of the query's masked row.
theorem scoM_tile (t : Fin (cfg1 Cover.A₁).N) (i : Fin 512) :
    (fun j => scoM (Cover.qT t.val) (Cover.kT t.val) (xqB V c t) (xkB V c t) i j) = tile (Srow V c (bT t) (qT t) i) (kT t) := by
  funext j
  unfold scoM
  rw [sco_eq]
  rfl

-- Off the diagonal the mask keeps every column of the tile.
theorem sco_tile (t : Fin (cfg1 Cover.A₁).N) (h : Cover.kT t.val < Cover.qT t.val) (i : Fin 512) :
    (fun j => sco (xqB V c t) (xkB V c t) i j) = tile (Srow V c (bT t) (qT t) i) (kT t) := by
  rw [← scoM_tile]
  funext j
  have hj := j.isLt
  have hi := i.isLt
  exact (if_pos (by omega)).symm

theorem vcol_tile (t : Fin (cfg1 Cover.A₁).N) (d : Fin 1024) :
    vcol (xvB V c t) d = tile (vrow V c (bT t) d) (kT t) :=
  funext fun j => (iblk_apply V c t j d).2.2

theorem ofNat_eq_iff : ∀ x < 4, ∀ y < 4, (BitVec.ofNat 32 x = BitVec.ofNat 32 y ↔ x = y) := by decide

abbrev stOf (p : Pt1 Ideal) (i : Fin 512) (d : Fin 1024) : St := stAt p.2.1 p.2.2.1 p.2.2.2 i d

theorem cond_zero (t : Fin (cfg1 Cover.A₁).N) : (kiW (F := Ideal) Cover.A₁.1 (grid1.coords t) = 0#32) ↔ Cover.kT t.val = 0 := by
  rw [(Cover.words_facts t).2]
  exact ofNat_eq_iff _ (kT t).isLt _ (by decide)

theorem cond_diag (t : Fin (cfg1 Cover.A₁).N) :
    (kiW (F := Ideal) Cover.A₁.1 (grid1.coords t) = qiW (F := Ideal) Cover.A₁.1 (grid1.coords t)) ↔ Cover.kT t.val = Cover.qT t.val := by
  rw [(Cover.words_facts t).2, (Cover.words_facts t).1]
  exact ofNat_eq_iff _ (kT t).isLt _ (qT t).isLt

-- One point takes the state of (i, d), or the start at a first key tile, one tile step along the query's masked row.
theorem pt_scr (t : Fin (cfg1 Cover.A₁).N) (p : Pt1 Ideal) (i : Fin 512) (d : Fin 1024) :
    stOf (pt1 V Cover.A₁ c t p) i d
      = (if Cover.kT t.val = 0 then St.init else stOf p i d).step
          (tile (Srow V c (bT t) (qT t) i) (kT t)) (tile (vrow V c (bT t) d) (kT t)) := by
  obtain ⟨hq, hk⟩ := Cover.words_facts t
  have hle := (Cover.sched_nat t.val (lt40 t)).2.1
  unfold pt1
  rw [← vcol_tile]
  by_cases h0 : Cover.kT t.val = 0 <;> by_cases hd : Cover.kT t.val = Cover.qT t.val
  · rw [if_pos ((cond_zero t).mpr h0), if_pos ((cond_diag t).mpr hd), if_pos h0, ← scoM_tile, ← init_state i d]
    exact step_diag _ _ _ _ (qT t).isLt (kT t).isLt hq hk _ _ _ _ _ _ i d
  · rw [if_pos ((cond_zero t).mpr h0), if_neg (mt (cond_diag t).mp hd), if_pos h0, ← sco_tile V c t (by omega) i, ← init_state i d]
    exact step_off _ _ _ _ _ _ i d
  · rw [if_neg (mt (cond_zero t).mp h0), if_pos ((cond_diag t).mpr hd), if_neg h0, ← scoM_tile]
    exact step_diag _ _ _ _ (qT t).isLt (kT t).isLt hq hk _ _ _ _ _ _ i d
  · rw [if_neg (mt (cond_zero t).mp h0), if_neg (mt (cond_diag t).mp hd), if_neg h0, ← sco_tile V c t (by omega) i]
    exact step_off _ _ _ _ _ _ i d

-- At a diagonal point the output block holds, at (i, d), the new weighted sum divided by the new sum.
theorem pt_out (t : Fin (cfg1 Cover.A₁).N) (p : Pt1 Ideal) (hd : Cover.kT t.val = Cover.qT t.val) (i : Fin 512) (d : Fin 1024) :
    ((pt1 V Cover.A₁ c t p).1 : Vec Ideal S1x512x1024 .f32) (ix3 (0 : Fin 1) i d)
      = Ideal.div (stOf (pt1 V Cover.A₁ c t p) i d).a (stOf (pt1 V Cover.A₁ c t p) i d).l := by
  unfold pt1
  rw [if_pos ((cond_diag t).mpr hd), if_pos ((cond_diag t).mpr hd)]
  split <;> exact pay7_apply _ _ i d

theorem scr_step (t : Fin (cfg1 Cover.A₁).N) (p : Pt1 Ideal) (i : Fin 512) (d : Fin 1024)
    (h : Cover.kT t.val ≠ 0 → stOf p i d = foldTo (Srow V c (bT t) (qT t) i) (vrow V c (bT t) d) (Cover.kT t.val)) :
    stOf (pt1 V Cover.A₁ c t p) i d = foldTo (Srow V c (bT t) (qT t) i) (vrow V c (bT t) d) (Cover.kT t.val + 1) := by
  rw [pt_scr, foldTo_succ _ _ (Cover.kT t.val) (kT t).isLt]
  refine congrArg (fun s : St => s.step _ _) ?_
  by_cases hk : Cover.kT t.val = 0
  · rw [if_pos hk, hk]; rfl
  · rw [if_neg hk]; exact h hk

-- After point n the carried state at (i, d) is the running form of the query's masked row folded over the key tiles up to the point's own.
theorem scr_inv (i : Fin 512) (d : Fin 1024) : ∀ (n : ℕ) (hn : n < (cfg1 Cover.A₁).N),
    stOf (outsAt1 V Cover.A₁ c n hn) i d
      = foldTo (Srow V c (bT ⟨n, hn⟩) (qT ⟨n, hn⟩) i) (vrow V c (bT ⟨n, hn⟩) d) (Cover.kT n + 1)
  | 0, hn => scr_step V c ⟨0, hn⟩ junk1 i d fun h => absurd (show Cover.kT 0 = 0 by decide) h
  | n + 1, hn => scr_step V c ⟨n + 1, hn⟩ (outsAt1 V Cover.A₁ c n (Nat.lt_of_succ_lt hn)) i d fun hk => by
    obtain ⟨hb, hq, hkk⟩ := (Cover.sched_nat (n + 1) (lt40 ⟨n + 1, hn⟩)).2.2 hk
    rw [Nat.add_sub_cancel] at hb hq hkk
    rw [scr_inv i d n (Nat.lt_of_succ_lt hn), show bT ⟨n, Nat.lt_of_succ_lt hn⟩ = bT ⟨n + 1, hn⟩ from Fin.ext hb,
      show qT ⟨n, Nat.lt_of_succ_lt hn⟩ = qT ⟨n + 1, hn⟩ from Fin.ext hq, hkk]

theorem dotRow_real (q k : Act) (hq : ∀ bi r e, ∃ x : ℝ, q bi r e = (x : EReal)) (hk : ∀ bi r e, ∃ x : ℝ, k bi r e = (x : EReal))
    (bi : Fin 4) (r c' : Fin 2048) : ∃ x : ℝ, dotRow q k bi r c' = (x : EReal) := by
  choose fq hfq using hq
  choose fk hfk using hk
  refine ⟨∑ e : Fin 1024, fq bi r e * fk bi c' e, ?_⟩
  unfold dotRow
  rw [coe_sum]
  exact Finset.sum_congr rfl fun e _ => by rw [hfq, hfk, EReal.coe_mul]

-- At a diagonal point the output block holds the causal attention of the three input arrays at its rows.
theorem diag_block (hq : ∀ bi r e, ∃ x : ℝ, qA V c bi r e = (x : EReal)) (hk : ∀ bi r e, ∃ x : ℝ, kA V c bi r e = (x : EReal))
    (hv : ∀ bi r e, ∃ x : ℝ, vA V c bi r e = (x : EReal))
    (t : Fin (cfg1 Cover.A₁).N) (hd : Cover.kT t.val = Cover.qT t.val) (i : Fin 512) (d : Fin 1024) :
    ((outsAt1 V Cover.A₁ c t.val t.isLt).1 : Vec Ideal S1x512x1024 .f32) (ix3 (0 : Fin 1) i d)
      = out (vA V c) (fun bi r c' => dotRow (qA V c) (kA V c) bi r c') (bT t) (pos (qT t) i) d := by
  rw [outsAt1_eq V Cover.A₁ c t, pt_out V c t _ hd i d, ← outsAt1_eq V Cover.A₁ c t, scr_inv V c i d t.val t.isLt]
  exact Cert.Attn.online_masked (fun c' => dotRow (qA V c) (kA V c) (bT t) (pos (qT t) i) c') (fun c' => vA V c (bT t) c' d)
    (pos (qT t) i) (fun c' => dotRow_real (qA V c) (kA V c) hq hk (bT t) (pos (qT t) i) c') (fun c' => hv (bT t) c' d)
    (Cover.kT t.val) (by
      rw [hd]
      show (512 * Cover.qT t.val + i.val) / 512 = Cover.qT t.val
      have := i.isLt
      omega)

-- The sixteen diagonal points' blocks tile the output array, and each holds the attention of its rows.
theorem r1_value (hS : Sched1 (adm (F := Ideal) 1))
    (hq : ∀ bi r e, ∃ x : ℝ, qA V c bi r e = (x : EReal)) (hk : ∀ bi r e, ∃ x : ℝ, kA V c bi r e = (x : EReal))
    (hv : ∀ bi r e, ∃ x : ℝ, vA V c bi r e = (x : EReal)) (bi : Fin 4) (r : Fin 2048) (d : Fin 1024) :
    ((dat1 V (adm (F := Ideal) 1) c).arrAt 3 (cfg1 (adm (F := Ideal) 1)).N : S4x2048x1024.Idx → EReal) (ix3 bi r d)
      = out (vA V c) (fun bi r c' => dotRow (qA V c) (kA V c) bi r c') bi r d :=
  congrFun (arrAt3_eq V c (fun j => out (vA V c) (fun bi r c' => dotRow (qA V c) (kA V c) bi r c') (j 0) (j 1) (j 2))
    fun t _ hd i d => diag_block V c hq hk hv t hd i d) (ix3 bi r d)

end Cert.KernelIdeal.Val

end
-- ==== Proof.Bridge.lean ====
import proofs.«403451_j89893665506083_3_alg».proof.Proof.LibOnlineSoftmax
import proofs.«403451_j89893665506083_3_alg».proof.Proof.RealArr
import Mathlib.Data.EReal.Operations
import Mathlib.Algebra.BigOperators.Ring.Finset
import Mathlib.Tactic.Ring
import Mathlib.Tactic.NormNum

noncomputable section

namespace Cert.Attn.Bridge

open Idealize.ShloMosaic Cert.Attn Cert.Attn.RealArr

theorem sc_eq : sc = (((1 : ℝ) / 32 : ℝ) : EReal) := by
  unfold sc; simp [Ideal.ofBits, Ideal.ieee, -EReal.coe_mul]; norm_num

alias coe_sum := Cert.Attn.coe_sum

-- Over real entries, multiplying by the scale commutes with a finite sum.
theorem sum_mul_sc {ι : Type} (s : Finset ι) (f : ι → EReal) (hf : ∀ i, ∃ a : ℝ, f i = (a : EReal)) :
    ∑ i ∈ s, f i * sc = (∑ i ∈ s, f i) * sc := by
  choose g hg using hf
  simp only [hg, sc_eq, ← EReal.coe_mul, ← coe_sum, Finset.sum_mul]

-- Folding the scale into weights and bias scales the projection: x (W s)ᵀ + b s = (x Wᵀ + b) s over reals.
theorem projS_eq (x : Act) (W : Wt) (b : Bias) (hx : ∀ bi r d, ∃ t : ℝ, x bi r d = (t : EReal))
    (hW : ∀ e d, ∃ t : ℝ, W e d = (t : EReal)) (hb : ∀ e, ∃ t : ℝ, b e = (t : EReal)) (bi : Fin 4) (r : Fin 2048) (e : Fin 1024) :
    projS x W b bi r e = proj x W b bi r e * sc := by
  have hf := fun d => real_mul (hx bi r d) (hW e d)
  obtain ⟨A, hA⟩ := real_sum Finset.univ _ hf
  obtain ⟨B, hB⟩ := hb e
  unfold projS proj
  simp only [← mul_assoc]
  rw [sum_mul_sc _ _ hf, hA, hB, sc_eq, ← EReal.coe_mul, ← EReal.coe_mul, ← EReal.coe_add, ← EReal.coe_add, ← EReal.coe_mul, add_mul]

theorem score_eq (x : Act) (Wq : Wt) (bq : Bias) (Wk : Wt) (bk : Bias)
    (hx : ∀ bi r d, ∃ t : ℝ, x bi r d = (t : EReal)) (hWq : ∀ e d, ∃ t : ℝ, Wq e d = (t : EReal)) (hbq : ∀ e, ∃ t : ℝ, bq e = (t : EReal))
    (hWk : ∀ e d, ∃ t : ℝ, Wk e d = (t : EReal)) (hbk : ∀ e, ∃ t : ℝ, bk e = (t : EReal)) (bi : Fin 4) (r c : Fin 2048) :
    dotRow (projS x Wq bq) (proj x Wk bk) bi r c = dotRow (proj x Wq bq) (proj x Wk bk) bi r c * sc := by
  unfold dotRow
  rw [← sum_mul_sc _ _ fun e => real_mul (proj_real x Wq bq hx hWq hbq bi r e) (proj_real x Wk bk hx hWk hbk bi c e)]
  exact Finset.sum_congr rfl fun e _ => by rw [projS_eq x Wq bq hx hWq hbq, mul_right_comm]

end Cert.Attn.Bridge

end
-- ==== Proof.HostVals.lean ====
import proofs.«403451_j89893665506083_3_alg».proof.Proof.Gen.KernelIdeal.Launch
import proofs.«403451_j89893665506083_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Val

open Cert.KernelIdeal Cert.KernelIdeal.Gen Idealize.ShloMosaic Idealize.ShloMosaic.TcCoe Idealize.SL.Sem Idealize.ShloMosaic.StableHlo
open Idealize.ShloMosaic.ValueIdx

-- Flattening the batch axis sends (b, r) to row 2048 b + r.
abbrev flatRow (bi : Fin 4) (r : Fin 2048) : Fin 8192 := ⟨2048 * bi.val + r.val, by omega⟩

theorem flat_apply {α : Type} (x : S4x2048x1024.Idx → α) (bi : Fin 4) (r : Fin 2048) (d : Fin 1024) :
    shapeCast S8192x1024 x shapeCasts_S4x2048x1024_S8192x1024 (ix2 (flatRow bi r) d) = x (ix3 bi r d) := by
  refine shapeCast_apply x _ _ (ix3 bi r d) ?_
  rw [Shape.rowMajor_val_three, Shape.rowMajor_val_two]
  show (bi.val * 2048 + r.val) * 1024 + d.val = (2048 * bi.val + r.val) * 1024 + d.val
  omega

theorem unflat_apply {α : Type} (x : S8192x1024.Idx → α) (bi : Fin 4) (r : Fin 2048) (e : Fin 1024) :
    shapeCast S4x2048x1024 x shapeCasts_S8192x1024_S4x2048x1024 (ix3 bi r e) = x (ix2 (flatRow bi r) e) := by
  refine shapeCast_apply x _ _ (ix2 (flatRow bi r) e) ?_
  rw [Shape.rowMajor_val_three, Shape.rowMajor_val_two]
  show (2048 * bi.val + r.val) * 1024 + e.val = (bi.val * 2048 + r.val) * 1024 + e.val
  omega

-- Transposed weights in the kernel's narrower format: at the ideal values the rounding drops out.
theorem truncT_apply (x : FVec Ideal S1024x1024 .f32) (d e : Fin 1024) :
    truncf .bf16 (transpose S1024x1024 [1, 0] x transposes_S1024x1024_S1024x1024_1_0 : FVec Ideal S1024x1024 .f32) bitsLt_bf16_f32 (ix2 d e)
      = x (ix2 e d) := by
  rw [truncf_apply, transpose_ix2_apply]

variable (W : Valuation τ sig (Elt Ideal))

abbrev inX : S4x2048x1024.Idx → EReal := W (Proc.devRef .tc main_arg0)
abbrev inWq : S1024x1024.Idx → EReal := W (Proc.devRef .tc main_arg1)
abbrev inBq : S1024.Idx → EReal := W (Proc.devRef .tc main_arg2)
abbrev inWk : S1024x1024.Idx → EReal := W (Proc.devRef .tc main_arg3)
abbrev inBk : S1024.Idx → EReal := W (Proc.devRef .tc main_arg4)
abbrev inWv : S1024x1024.Idx → EReal := W (Proc.devRef .tc main_arg5)
abbrev inBv : S1024.Idx → EReal := W (Proc.devRef .tc main_arg6)

theorem host0_v0 (bi : Fin 4) (r : Fin 2048) (d : Fin 1024) :
    (StableHlo.after (hostOps0 (F := Ideal)) W (Proc.devRef .tc main_v0) : S8192x1024.Idx → EReal) (ix2 (flatRow bi r) d)
      = inX W (ix3 bi r d) := by
  dsimp only [hostOps0]; after_results
  exact flat_apply _ bi r d

-- The query weights and bias also carry the scale.
theorem host0_v4 (d e : Fin 1024) :
    (StableHlo.after (hostOps0 (F := Ideal)) W (Proc.devRef .tc main_v4) : S1024x1024.Idx → EReal) (ix2 d e)
      = inWq W (ix2 e d) * Cert.Attn.sc := by
  dsimp only [hostOps0]; after_results
  rw [truncf_apply, mulf_apply, transpose_ix2_apply]
  rfl

theorem host0_v6 (d e : Fin 1024) :
    (StableHlo.after (hostOps0 (F := Ideal)) W (Proc.devRef .tc main_v6) : S1024x1024.Idx → EReal) (ix2 d e)
      = inWk W (ix2 e d) := by
  dsimp only [hostOps0]; after_results
  exact truncT_apply _ d e

theorem host0_v8 (d e : Fin 1024) :
    (StableHlo.after (hostOps0 (F := Ideal)) W (Proc.devRef .tc main_v8) : S1024x1024.Idx → EReal) (ix2 d e)
      = inWv W (ix2 e d) := by
  dsimp only [hostOps0]; after_results
  exact truncT_apply _ d e

theorem host0_v11 (e : Fin 1024) :
    (StableHlo.after (hostOps0 (F := Ideal)) W (Proc.devRef .tc main_v11) : S1x1024.Idx → EReal) (ix2 0 e)
      = inBq W (ValueIdx.ix1 e) * Cert.Attn.sc := by
  dsimp only [hostOps0]; after_results
  refine (shapeCast_a_1a_apply ..).trans ?_
  rw [mulf_apply]
  rfl

theorem host0_v12 (e : Fin 1024) :
    (StableHlo.after (hostOps0 (F := Ideal)) W (Proc.devRef .tc main_v12) : S1x1024.Idx → EReal) (ix2 0 e)
      = inBk W (ValueIdx.ix1 e) := by
  dsimp only [hostOps0]; after_results
  exact shapeCast_a_1a_apply ..

theorem host0_v13 (e : Fin 1024) :
    (StableHlo.after (hostOps0 (F := Ideal)) W (Proc.devRef .tc main_v13) : S1x1024.Idx → EReal) (ix2 0 e)
      = inBv W (ValueIdx.ix1 e) := by
  dsimp only [hostOps0]; after_results
  exact shapeCast_a_1a_apply ..

-- The three projections regain their batch axis before the second region reads them.
theorem host1_v15 : StableHlo.after (hostOps1 (F := Ideal)) W (Proc.devRef .tc main_v15)
    = shapeCast S4x2048x1024 (W (Proc.devRef .tc main_v14_0)) shapeCasts_S8192x1024_S4x2048x1024 := by
  dsimp only [hostOps1]; after_results <;> rfl

theorem host1_v16 : StableHlo.after (hostOps1 (F := Ideal)) W (Proc.devRef .tc main_v16)
    = shapeCast S4x2048x1024 (W (Proc.devRef .tc main_v14_1)) shapeCasts_S8192x1024_S4x2048x1024 := by
  dsimp only [hostOps1]; after_results <;> rfl

theorem host1_v17 : StableHlo.after (hostOps1 (F := Ideal)) W (Proc.devRef .tc main_v17)
    = shapeCast S4x2048x1024 (W (Proc.devRef .tc main_v14_2)) shapeCasts_S8192x1024_S4x2048x1024 := by
  dsimp only [hostOps1]; after_results <;> rfl

end Cert.KernelIdeal.Val

end
-- ==== Proof.R0Value.lean ====
import proofs.«403451_j89893665506083_3_alg».proof.Proof.R0Body
import proofs.«403451_j89893665506083_3_alg».proof.Proof.LibDense
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

-- X · WT + B, the bias row repeated down the rows.
def proj0 (X : S8192x1024.Idx → EReal) (WT : S1024x1024.Idx → EReal) (B : S1x1024.Idx → EReal) : S8192x1024.Idx → EReal :=
  fun i => (∑ d : Fin 1024, X (ix2 (i 0) d) * WT (ix2 d (i 1))) + B (ix2 (0 : Fin 1) (i 1))

-- On extended reals rounding to the narrower format changes nothing, so a block's payload is the product plus the bias row.
theorem pay2_apply (x0 : Vec Ideal S512x1024 .f32) (w : Vec Ideal S1024x1024 .bf16) (b : Vec Ideal S1x1024 .f32) (p : Fin 512) (q : Fin 1024) :
    k0_pay2 x0 w b (ix2 p q) = (∑ d : Fin 1024, (x0 (ix2 p d) : EReal) * (w (ix2 d q) : EReal)) + (b (ix2 (0 : Fin 1) q) : EReal) := by
  unfold k0_pay2 k0_pay1
  dsimp only
  rw [shapeCast_self, shapeCast_self, shapeCast_self]
  show matmul (DotDims.plain 512 1024 1024) none (truncf FTy.bf16 x0 bitsLt_bf16_f32 : FVec Ideal S512x1024 .bf16) w (constant (F := Ideal) S512x1024 .f32 0x00000000#32) (ix2 p q)
      + broadcastTo S512x1024 b broadcasts_S1x1024_S512x1024 (ix2 p q) = _
  rw [Cert.Lib.matmul_plain_apply, broadcastTo_1b_ab_apply]
  rfl

theorem hz0 : (![0, 0] : Fin 2 → Nat) = fun _ => 0 := funext fun a => by fin_cases a <;> rfl

-- If the activation block sits at the output block's rows and the weight and bias blocks are the whole arrays,
-- the payload is the output block's part of the projection.
theorem blk_proj (X : S8192x1024.Idx → EReal) (WT : S1024x1024.Idx → EReal) (B : S1x1024.Idx → EReal)
    (x0 : Vec Ideal S512x1024 .f32) (w : Vec Ideal S1024x1024 .bf16) (b : Vec Ideal S1x1024 .f32)
    (ex eo : S512x1024.Idx → S8192x1024.Idx) (ew : S1024x1024.Idx → S1024x1024.Idx) (eb : S1x1024.Idx → S1x1024.Idx)
    (ix io iw ib : Fin 2 → ℕ)
    (hx : ∀ y, (x0 y : EReal) = X (ex y)) (hw : ∀ y, (w y : EReal) = WT (ew y)) (hb : ∀ y, (b y : EReal) = B (eb y))
    (hex : ∀ y a, (ex y a : ℕ) = ix a * S512x1024.size a + 1 * y a)
    (heo : ∀ y a, (eo y a : ℕ) = io a * S512x1024.size a + 1 * y a)
    (hew : ∀ y a, (ew y a : ℕ) = iw a * S1024x1024.size a + 1 * y a)
    (heb : ∀ y a, (eb y a : ℕ) = ib a * S1x1024.size a + 1 * y a)
    (hi : ix 0 = io 0 ∧ ix 1 = 0 ∧ io 1 = 0 ∧ iw 0 = 0 ∧ iw 1 = 0 ∧ ib 0 = 0 ∧ ib 1 = 0) :
    out0_7 x0 w b = fun j => proj0 X WT B (eo j) := by
  obtain ⟨h1, h2, h3, h4, h5, h6, h7⟩ := hi
  unfold out0_7
  rw [View.canon_unit_zero hz0]
  simp only [View.ld_unit_zero (S := S512x1024) hz0, View.ld_unit_zero (S := S1024x1024) hz0, View.ld_unit_zero (S := S1x1024) hz0]
  funext j
  obtain ⟨p, q, rfl⟩ : ∃ (p : Fin 512) (q : Fin 1024), j = ix2 p q := ⟨j 0, j 1, eq_ix2 j⟩
  have o0 : (eo (ix2 p q) 0 : ℕ) = io 0 * 512 + 1 * p.val := heo _ 0
  have o1 : (eo (ix2 p q) 1 : ℕ) = io 1 * 1024 + 1 * q.val := heo _ 1
  rw [pay2_apply, hb]
  refine congrArg₂ (· + ·) (Finset.sum_congr rfl fun d _ => ?_) (congrArg B (Shape.idx_ext₂ ?_ ?_))
  · rw [hx, hw]
    have x0' : (ex (ix2 p d) 0 : ℕ) = ix 0 * 512 + 1 * p.val := hex _ 0
    have x1' : (ex (ix2 p d) 1 : ℕ) = ix 1 * 1024 + 1 * d.val := hex _ 1
    have w0' : (ew (ix2 d q) 0 : ℕ) = iw 0 * 1024 + 1 * d.val := hew _ 0
    have w1' : (ew (ix2 d q) 1 : ℕ) = iw 1 * 1024 + 1 * q.val := hew _ 1
    refine congrArg₂ (fun a b => X a * WT b) (Shape.idx_ext₂ ?_ ?_) (Shape.idx_ext₂ ?_ ?_)
    · show (ex (ix2 p d) 0 : ℕ) = (eo (ix2 p q) 0 : ℕ); omega
    · show (ex (ix2 p d) 1 : ℕ) = d.val; omega
    · show (ew (ix2 d q) 0 : ℕ) = d.val; omega
    · show (ew (ix2 d q) 1 : ℕ) = (eo (ix2 p q) 1 : ℕ); omega
  · have b0' : (eb (ix2 (0 : Fin 1) q) 0 : ℕ) = ib 0 * 1 + 1 * 0 := heb _ 0
    show (eb (ix2 (0 : Fin 1) q) 0 : ℕ) = 0; omega
  · have b1' : (eb (ix2 (0 : Fin 1) q) 1 : ℕ) = ib 1 * 1024 + 1 * q.val := heb _ 1
    show (eb (ix2 (0 : Fin 1) q) 1 : ℕ) = (eo (ix2 p q) 1 : ℕ); omega

-- Row blocks of 512, one per point, tile the 8192 rows.
theorem cover_of (s : Fin cfg0.N → Finset S8192x1024.Idx) (io : Fin cfg0.N → Fin 2 → ℕ)
    (hs : ∀ t i, i ∈ s t ↔ ∀ a : Fin 2, io t a * S512x1024.size a ≤ (i a).val ∧ (i a).val < io t a * S512x1024.size a + S512x1024.size a)
    (hio : ∀ t, io t 0 = t.val ∧ io t 1 = 0) (fl : Fin cfg0.N → Bool) (hf : ∀ t, fl t = true) (i : S8192x1024.Idx) :
    ∃ t, fl t = true ∧ i ∈ s t := by
  have hi0 : (i 0).val < 8192 := (i 0).isLt
  have hi1 : (i 1).val < 1024 := (i 1).isLt
  obtain ⟨t, ht⟩ := (by decide +kernel : ∀ q0 : Fin 16, ∃ t : Fin grid0.N, t.val = q0.val) ⟨(i 0).val / 512, by omega⟩
  have ht' : t.val = (i 0).val / 512 := ht
  obtain ⟨e0, e1⟩ := hio t
  refine ⟨t, hf t, (hs t i).mpr fun a => ?_⟩
  match a with
  | ⟨0, _⟩ => show io t 0 * 512 ≤ (i 0).val ∧ (i 0).val < io t 0 * 512 + 512; omega
  | ⟨1, _⟩ => show io t 1 * 1024 ≤ (i 1).val ∧ (i 1).val < io t 1 * 1024 + 1024; omega

theorem idx_facts0 : ∀ t : Fin cfg0.N, (win0_0.index t 0 = t.val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = t.val ∧ win0_7.index t 1 = 0) ∧ (win0_8.index t 0 = t.val ∧ win0_8.index t 1 = 0)
    ∧ (win0_9.index t 0 = t.val ∧ win0_9.index t 1 = 0) :=
  (by decide +kernel : ∀ t : Fin grid0.N, _)

variable (V : (c : Dev nD) → (b : Ref sig .tc) → Buf (Elt Ideal) ((c : Thread nD τ).loc b))

theorem final7 (c : Dev nD) : (dat0 V c).arrAt 7 cfg0.N
    = proj0 (V c (Pipeline.arrRef spec0 0)) (V c (Pipeline.arrRef spec0 1)) (V c (Pipeline.arrRef spec0 4)) := by
  refine (dat0 V c).arrAt_eq_of_cover 7 _ (fun t _ => ?_) (cover_of _ win0_7.index (fun t i => ?_) (fun t => ?_) _ flush0_7)
  · show (cfg0.win 7).cut (grid0.coords t) ((dat0 V c).after 7 t) = _
    rw [after0_7]
    exact blk_proj _ _ _ (iblk0 V c 0 t) (iblk0 V c 1 t) (iblk0 V c 4 t) ((cfg0.win 0).blk t).view.emb ((cfg0.win 7).blk t).view.emb
      ((cfg0.win 1).blk t).view.emb ((cfg0.win 4).blk t).view.emb (win0_0.index t) (win0_7.index t) (win0_1.index t) (win0_4.index t)
      (fun _ => rfl) (fun _ => rfl) (fun _ => rfl) (fun _ _ => rfl) (fun _ _ => rfl) (fun _ _ => rfl) (fun _ _ => rfl)
      (by have := idx_facts0 t; omega)
  · show i ∈ ((View.whole main_v14_0).slice (win0_7.rect t)).set ↔ _
    rw [View.set_slice_whole, Rect.mem_set_unit]
    exact Iff.rfl
  · have := idx_facts0 t; omega

theorem final8 (c : Dev nD) : (dat0 V c).arrAt 8 cfg0.N
    = proj0 (V c (Pipeline.arrRef spec0 0)) (V c (Pipeline.arrRef spec0 2)) (V c (Pipeline.arrRef spec0 5)) := by
  refine (dat0 V c).arrAt_eq_of_cover 8 _ (fun t _ => ?_) (cover_of _ win0_8.index (fun t i => ?_) (fun t => ?_) _ flush0_8)
  · show (cfg0.win 8).cut (grid0.coords t) ((dat0 V c).after 8 t) = _
    rw [after0_8]
    exact blk_proj _ _ _ (iblk0 V c 0 t) (iblk0 V c 2 t) (iblk0 V c 5 t) ((cfg0.win 0).blk t).view.emb ((cfg0.win 8).blk t).view.emb
      ((cfg0.win 2).blk t).view.emb ((cfg0.win 5).blk t).view.emb (win0_0.index t) (win0_8.index t) (win0_2.index t) (win0_5.index t)
      (fun _ => rfl) (fun _ => rfl) (fun _ => rfl) (fun _ _ => rfl) (fun _ _ => rfl) (fun _ _ => rfl) (fun _ _ => rfl)
      (by have := idx_facts0 t; omega)
  · show i ∈ ((View.whole main_v14_1).slice (win0_8.rect t)).set ↔ _
    rw [View.set_slice_whole, Rect.mem_set_unit]
    exact Iff.rfl
  · have := idx_facts0 t; omega

theorem final9 (c : Dev nD) : (dat0 V c).arrAt 9 cfg0.N
    = proj0 (V c (Pipeline.arrRef spec0 0)) (V c (Pipeline.arrRef spec0 3)) (V c (Pipeline.arrRef spec0 6)) := by
  refine (dat0 V c).arrAt_eq_of_cover 9 _ (fun t _ => ?_) (cover_of _ win0_9.index (fun t i => ?_) (fun t => ?_) _ flush0_9)
  · show (cfg0.win 9).cut (grid0.coords t) ((dat0 V c).after 9 t) = _
    rw [after0_9]
    exact blk_proj _ _ _ (iblk0 V c 0 t) (iblk0 V c 3 t) (iblk0 V c 6 t) ((cfg0.win 0).blk t).view.emb ((cfg0.win 9).blk t).view.emb
      ((cfg0.win 3).blk t).view.emb ((cfg0.win 6).blk t).view.emb (win0_0.index t) (win0_9.index t) (win0_3.index t) (win0_6.index t)
      (fun _ => rfl) (fun _ => rfl) (fun _ => rfl) (fun _ _ => rfl) (fun _ _ => rfl) (fun _ _ => rfl) (fun _ _ => rfl)
      (by have := idx_facts0 t; omega)
  · show i ∈ ((View.whole main_v14_2).slice (win0_9.rect t)).set ↔ _
    rw [View.set_slice_whole, Rect.mem_set_unit]
    exact Iff.rfl
  · have := idx_facts0 t; omega

end Cert.KernelIdeal.Val

end
-- ==== Proof.KerInputs.lean ====
import proofs.«403451_j89893665506083_3_alg».proof.Proof.HostVals
import proofs.«403451_j89893665506083_3_alg».proof.Proof.R0Value

noncomputable section

namespace Cert.KernelIdeal.Val

open Cert.KernelIdeal Cert.KernelIdeal.Gen Cert.KernelIdeal.Hand Idealize.ShloMosaic Idealize.ShloMosaic.TcCoe Idealize.SL.Sem Idealize.ShloMosaic.StableHlo
open Idealize.ShloMosaic.ValueIdx
open Idealize.ShloMosaic.Pipeline (Dat)

-- The flat projection of flattened activations by a transposed weight matrix and a bias row, read at row 2048 b + r.
theorem proj0_flat (X : S8192x1024.Idx → EReal) (WT : S1024x1024.Idx → EReal) (B : S1x1024.Idx → EReal)
    (x : Cert.Attn.Act) (W : Cert.Attn.Wt) (b : Cert.Attn.Bias)
    (hX : ∀ bi r d, X (ix2 (flatRow bi r) d) = x bi r d) (hW : ∀ d e, WT (ix2 d e) = W e d) (hB : ∀ e, B (ix2 0 e) = b e)
    (bi : Fin 4) (r : Fin 2048) (e : Fin 1024) : proj0 X WT B (ix2 (flatRow bi r) e) = Cert.Attn.proj x W b bi r e :=
  congrArg₂ (· + ·) (Finset.sum_congr rfl fun d _ => congrArg₂ (· * ·) (hX bi r d) (hW d e)) (hB e)

variable (W0 : Dev nD → Valuation τ sig (Elt Ideal))

abbrev V1of : (c : Dev nD) → (b : Ref sig .tc) → Buf (Elt Ideal) ((c : Thread nD τ).loc b) :=
  fun c b => StableHlo.after (hostOps0 (F := Ideal)) (W0 c) b

def actIn (c : Dev nD) : Cert.Attn.Act := fun bi r d => inX (W0 c) (ix3 bi r d)
def wqIn (c : Dev nD) : Cert.Attn.Wt := fun e d => inWq (W0 c) (ix2 e d)
def bqIn (c : Dev nD) : Cert.Attn.Bias := fun e => inBq (W0 c) (ValueIdx.ix1 e)
def wkIn (c : Dev nD) : Cert.Attn.Wt := fun e d => inWk (W0 c) (ix2 e d)
def bkIn (c : Dev nD) : Cert.Attn.Bias := fun e => inBk (W0 c) (ValueIdx.ix1 e)
def wvIn (c : Dev nD) : Cert.Attn.Wt := fun e d => inWv (W0 c) (ix2 e d)
def bvIn (c : Dev nD) : Cert.Attn.Bias := fun e => inBv (W0 c) (ValueIdx.ix1 e)

variable (W2 : Valuation τ sig (Elt Ideal)) (c : Dev nD)
  (hW2 : ∀ w : Fin cfg0.W, W2 (Proc.devRef .tc (Pipeline.arrRef spec0 w)) = (dat0 (V1of W0) c).arrAt w cfg0.N)
include hW2

-- The second region reads x (W·s)ᵀ + b·s as its queries and the unscaled x Wᵀ + b as its keys and values.
theorem in1_q (bi : Fin 4) (r : Fin 2048) (e : Fin 1024) :
    (StableHlo.after (hostOps1 (F := Ideal)) W2 (Proc.devRef .tc main_v15) : S4x2048x1024.Idx → EReal) (ix3 bi r e)
      = Cert.Attn.projS (actIn W0 c) (wqIn W0 c) (bqIn W0 c) bi r e :=
  (congrFun (host1_v15 W2) _).trans <| (unflat_apply _ bi r e).trans <| (congrFun ((hW2 7).trans (final7 (V1of W0) c)) _).trans <|
    proj0_flat _ _ _ (actIn W0 c) (fun e d => wqIn W0 c e d * Cert.Attn.sc) (fun e => bqIn W0 c e * Cert.Attn.sc)
      (host0_v0 (W0 c)) (host0_v4 (W0 c)) (host0_v11 (W0 c)) bi r e

theorem in1_k (bi : Fin 4) (r : Fin 2048) (e : Fin 1024) :
    (StableHlo.after (hostOps1 (F := Ideal)) W2 (Proc.devRef .tc main_v16) : S4x2048x1024.Idx → EReal) (ix3 bi r e)
      = Cert.Attn.proj (actIn W0 c) (wkIn W0 c) (bkIn W0 c) bi r e :=
  (congrFun (host1_v16 W2) _).trans <| (unflat_apply _ bi r e).trans <| (congrFun ((hW2 8).trans (final8 (V1of W0) c)) _).trans <|
    proj0_flat _ _ _ (actIn W0 c) (wkIn W0 c) (bkIn W0 c) (host0_v0 (W0 c)) (host0_v6 (W0 c)) (host0_v12 (W0 c)) bi r e

theorem in1_v (bi : Fin 4) (r : Fin 2048) (e : Fin 1024) :
    (StableHlo.after (hostOps1 (F := Ideal)) W2 (Proc.devRef .tc main_v17) : S4x2048x1024.Idx → EReal) (ix3 bi r e)
      = Cert.Attn.proj (actIn W0 c) (wvIn W0 c) (bvIn W0 c) bi r e :=
  (congrFun (host1_v17 W2) _).trans <| (unflat_apply _ bi r e).trans <| (congrFun ((hW2 9).trans (final9 (V1of W0) c)) _).trans <|
    proj0_flat _ _ _ (actIn W0 c) (wvIn W0 c) (bvIn W0 c) (host0_v0 (W0 c)) (host0_v8 (W0 c)) (host0_v13 (W0 c)) bi r e

end Cert.KernelIdeal.Val

end
-- ==== Proof.KerValue.lean ====
import proofs.«403451_j89893665506083_3_alg».proof.Proof.Run
import proofs.«403451_j89893665506083_3_alg».proof.Proof.R1Value
import proofs.«403451_j89893665506083_3_alg».proof.Proof.Bridge
import proofs.«403451_j89893665506083_3_alg».proof.Proof.RealArr
import proofs.«403451_j89893665506083_3_alg».proof.Proof.KerInputs

noncomputable section

namespace Cert.KernelIdeal.Val

open Cert.KernelIdeal Cert.KernelIdeal.Gen Cert.KernelIdeal.Hand Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg) (c : Dev nD)

-- The seven launched arrays as functions of their coordinates.
def kArgX : Cert.Attn.Act := fun bi r d => m ((c.tc : Thread nD τ).loc main_arg0) (ix3 bi r d)
def kArgWq : Cert.Attn.Wt := fun e d => m ((c.tc : Thread nD τ).loc main_arg1) (ix2 e d)
def kArgBq : Cert.Attn.Bias := fun e => m ((c.tc : Thread nD τ).loc main_arg2) (ValueIdx.ix1 e)
def kArgWk : Cert.Attn.Wt := fun e d => m ((c.tc : Thread nD τ).loc main_arg3) (ix2 e d)
def kArgBk : Cert.Attn.Bias := fun e => m ((c.tc : Thread nD τ).loc main_arg4) (ValueIdx.ix1 e)
def kArgWv : Cert.Attn.Wt := fun e d => m ((c.tc : Thread nD τ).loc main_arg5) (ix2 e d)
def kArgBv : Cert.Attn.Bias := fun e => m ((c.tc : Thread nD τ).loc main_arg6) (ValueIdx.ix1 e)

theorem in_q : qA (V3 m ρ) c = Cert.Attn.projS (kArgX m c) (kArgWq m c) (kArgBq m c) :=
  funext fun bi => funext fun r => funext fun e => in1_q (W0 m ρ) (W2 m ρ c) c (W2_arr m ρ c) bi r e

theorem in_k : kA (V3 m ρ) c = Cert.Attn.proj (kArgX m c) (kArgWk m c) (kArgBk m c) :=
  funext fun bi => funext fun r => funext fun e => in1_k (W0 m ρ) (W2 m ρ c) c (W2_arr m ρ c) bi r e

theorem in_v : vA (V3 m ρ) c = Cert.Attn.proj (kArgX m c) (kArgWv m c) (kArgBv m c) :=
  funext fun bi => funext fun r => funext fun e => in1_v (W0 m ρ) (W2 m ρ c) c (W2_arr m ρ c) bi r e

-- With real arguments, scaling the query projection by s scales every score by s.
theorem ker_apply
    (h0 : ∀ i, ∃ x : ℝ, m ((c.tc : Thread nD τ).loc main_arg0) i = (x : EReal))
    (h1 : ∀ i, ∃ x : ℝ, m ((c.tc : Thread nD τ).loc main_arg1) i = (x : EReal))
    (h2 : ∀ i, ∃ x : ℝ, m ((c.tc : Thread nD τ).loc main_arg2) i = (x : EReal))
    (h3 : ∀ i, ∃ x : ℝ, m ((c.tc : Thread nD τ).loc main_arg3) i = (x : EReal))
    (h4 : ∀ i, ∃ x : ℝ, m ((c.tc : Thread nD τ).loc main_arg4) i = (x : EReal))
    (h5 : ∀ i, ∃ x : ℝ, m ((c.tc : Thread nD τ).loc main_arg5) i = (x : EReal))
    (h6 : ∀ i, ∃ x : ℝ, m ((c.tc : Thread nD τ).loc main_arg6) i = (x : EReal))
    (bi : Fin 4) (r : Fin 2048) (d : Fin 1024) :
    (W4 (F := Ideal) m ρ c (Proc.devRef .tc main_v18) : S4x2048x1024.Idx → EReal) (ix3 bi r d)
      = Cert.Attn.out (Cert.Attn.proj (kArgX m c) (kArgWv m c) (kArgBv m c))
          (fun bi r cc => Cert.Attn.dotRow (Cert.Attn.proj (kArgX m c) (kArgWq m c) (kArgBq m c))
            (Cert.Attn.proj (kArgX m c) (kArgWk m c) (kArgBk m c)) bi r cc * Cert.Attn.sc) bi r d := by
  have hX : ∀ bi r d, ∃ a : ℝ, kArgX m c bi r d = (a : EReal) := fun bi r d => h0 (ix3 bi r d)
  have hWq : ∀ e d, ∃ a : ℝ, kArgWq m c e d = (a : EReal) := fun e d => h1 (ix2 e d)
  have hBq : ∀ e, ∃ a : ℝ, kArgBq m c e = (a : EReal) := fun e => h2 (ValueIdx.ix1 e)
  have hWk : ∀ e d, ∃ a : ℝ, kArgWk m c e d = (a : EReal) := fun e d => h3 (ix2 e d)
  have hBk : ∀ e, ∃ a : ℝ, kArgBk m c e = (a : EReal) := fun e => h4 (ValueIdx.ix1 e)
  have hWv : ∀ e d, ∃ a : ℝ, kArgWv m c e d = (a : EReal) := fun e d => h5 (ix2 e d)
  have hBv : ∀ e, ∃ a : ℝ, kArgBv m c e = (a : EReal) := fun e => h6 (ValueIdx.ix1 e)
  have eq := in_q m ρ c
  have ek := in_k m ρ c
  have ev := in_v m ρ c
  refine (congrFun (W4_main_v18 m ρ c) (ix3 bi r d)).trans ?_
  refine (r1_value (V3 m ρ) c sched1_adm
    (fun bi r e => by rw [eq]; exact Cert.Attn.RealArr.projS_real _ _ _ hX hWq hBq bi r e)
    (fun bi r e => by rw [ek]; exact Cert.Attn.RealArr.proj_real _ _ _ hX hWk hBk bi r e)
    (fun bi r e => by rw [ev]; exact Cert.Attn.RealArr.proj_real _ _ _ hX hWv hBv bi r e)
    bi r d).trans ?_
  rw [eq, ek, ev]
  exact congrArg (fun s => Cert.Attn.out _ s bi r d) (funext fun bi => funext fun r => funext fun cc =>
    Cert.Attn.Bridge.score_eq (kArgX m c) (kArgWq m c) (kArgBq m c) (kArgWk m c) (kArgBk m c) hX hWq hBq hWk hBk bi r cc)

end Cert.KernelIdeal.Val

end
-- ==== Proof.Bits.Tables.lean ====
import proofs.«403451_j89893665506083_3_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

def pf₀ : pre1.Contents (Elt F) := fun
  | ⟨0, _⟩ => fun i => lit0 (S10.rowMajor i)
  | ⟨1, _⟩ => fun i => lit1 (S10.rowMajor i)
  | ⟨_ + 2, h⟩ => absurd h (by simp)

theorem after_hostOps0_main_c (W : Valuation τ sig (Elt F)) :
    StableHlo.after hostOps0 W (Proc.devRef .tc main_c) = (pf₀ (F := F)) 0 := by
  unfold hostOps0
  open StableHlo in after_results
  rfl

theorem after_hostOps0_main_c_0 (W : Valuation τ sig (Elt F)) :
    StableHlo.after hostOps0 W (Proc.devRef .tc main_c_0) = (pf₀ (F := F)) 1 := by
  unfold hostOps0
  open StableHlo in after_results
  rfl

theorem qi_word (i : grid1.Coords) : (pf₀ (F := F)).atD 0 (k1_off1 i) = lit0 ⟨(i 1).val, (i 1).isLt⟩ := by
  rw [k1_off1_eq]
  unfold Pipeline.Prefetch.Contents.atD
  rw [dif_pos (fun a => by fin_cases a; exact (i 1).isLt)]
  exact congrArg lit0 (Fin.ext (Shape.rowMajor_val_one _))

theorem ki_word (i : grid1.Coords) : (pf₀ (F := F)).atD 1 (k1_off1 i) = lit1 ⟨(i 1).val, (i 1).isLt⟩ := by
  rw [k1_off1_eq]
  unfold Pipeline.Prefetch.Contents.atD
  rw [dif_pos (fun a => by fin_cases a; exact (i 1).isLt)]
  exact congrArg lit1 (Fin.ext (Shape.rowMajor_val_one _))

theorem lit0_lt : ∀ x : Fin 10, (lit0 x).toNat < 4 := by decide
theorem lit1_lt : ∀ x : Fin 10, (lit1 x).toNat < 4 := by decide

theorem blk_inb (i0 : Fin 4) (v : BitVec 32) (hv : v.toNat < 4) :
    ∀ a : Fin 3, ((![(BitVec.ofNat 32 i0.val).toNat, v.toNat, (0#32).toNat] : Fin 3 → Nat) a + 1) * S1x512x1024.size a ≤ S4x2048x1024.size a := by
  intro a
  have h0 : i0.val < 4 := i0.isLt
  fin_cases a
  · show ((BitVec.ofNat 32 i0.val).toNat + 1) * 1 ≤ 4
    rw [BitVec.toNat_ofNat, Nat.mod_eq_of_lt (by omega)]; omega
  · show (v.toNat + 1) * 512 ≤ 2048
    omega
  · show (0 + 1) * 1024 ≤ 1024
    omega

theorem ok1_pf₀ : ok1 (F := F) pf₀ := by
  unfold ok1
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩,
    fun i => ⟨?_, .inl rfl⟩⟩
  · exact blk_inb (i 0) _ (lit0_lt _)
  · exact blk_inb (i 0) _ (lit1_lt _)
  · exact blk_inb (i 0) _ (lit1_lt _)
  · exact blk_inb (i 0) _ (lit0_lt _)

abbrev adm : (p : Fin 2) → (pcfgs (F := F) p).Adm
  | ⟨0, _⟩ => cfg0.toPCfg_adm
  | ⟨1, _⟩ => ⟨pf₀, ok1_pf₀⟩
  | ⟨_ + 2, h⟩ => absurd h (by simp)

theorem adm_one_val : (adm (F := F) 1).1 = pf₀ := rfl

theorem at_word0 (i : grid1.Coords) :
    (pf₀ (F := F)).at 0 (Rect.unit (s := S10) ![(Scalar.indexCast (BitVec.ofNat 32 (i 1).val)).toNat] S1.size (k1_off1_inb i)) numel1_S1
      = lit0 ⟨(i 1).val, (i 1).isLt⟩ := by
  show lit0 (S10.rowMajor _) = _
  refine congrArg lit0 (Fin.ext ?_)
  refine (Shape.rowMajor_val_one _).trans ?_
  show k1_off1 i 0 + 1 * 0 = (i 1).val
  rw [k1_off1_eq]; rfl

theorem tr3_closed (i : grid1.Coords) :
    cc1_transform_3 k1_off1_inb numel1_S1 (pf₀ (F := F)) i
      = ![(BitVec.ofNat 32 (i 0).val).toNat, (lit0 ⟨(i 1).val, (i 1).isLt⟩).toNat, (0#32).toNat] := by
  unfold cc1_transform_3
  dsimp only
  rw [at_word0]

def idx3c (t : Fin grid1.N) : Fin 3 → Nat :=
  ![(BitVec.ofNat 32 (grid1.coords t 0).val).toNat, (lit0 ⟨(grid1.coords t 1).val, (grid1.coords t 1).isLt⟩).toNat, (0#32).toNat]

theorem lit_le : ∀ j : Fin 10, (lit1 j).slt (lit0 j) = true ∨ lit1 j = lit0 j := by decide

theorem lit1_first : ∀ h : 0 < grid1.N, lit1 ⟨(grid1.coords ⟨0, h⟩ 1).val, (grid1.coords ⟨0, h⟩ 1).isLt⟩ = 0#32 := by decide

theorem flush_closed : ∀ t : Fin grid1.N,
    lit1 ⟨(grid1.coords t 1).val, (grid1.coords t 1).isLt⟩ ≠ lit0 ⟨(grid1.coords t 1).val, (grid1.coords t 1).isLt⟩ →
      t.val + 1 ≠ grid1.N ∧ ∀ h : t.val + 1 < grid1.N, idx3c ⟨t.val + 1, h⟩ = idx3c t := by decide

end Cert.Kernel.Hand

end
-- ==== Proof.Bits.R0Body.lean ====
import proofs.«403451_j89893665506083_3_alg».proof.Proof.Gen.Kernel.Launch
import proofs.«403451_j89893665506083_3_alg».proof.Proof.Gen.Kernel.Skeleton
import proofs.«403451_j89893665506083_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

def out0_7 (x0 : Vec F S512x1024 .f32) (x1 : Vec F S1024x1024 .bf16) (x4 : Vec F S1x1024 .f32) : Vec F S512x1024 .bf16 :=
  View.canon [⟨r0_0, k0_pay2 (View.ld x0 r0_0) (View.ld x1 r0_1) (View.ld x4 r0_2)⟩]

def out0_8 (x0 : Vec F S512x1024 .f32) (x2 : Vec F S1024x1024 .bf16) (x5 : Vec F S1x1024 .f32) : Vec F S512x1024 .bf16 :=
  View.canon [⟨r0_0, k0_pay3 (View.ld x0 r0_0) (View.ld x2 r0_1) (View.ld x5 r0_2)⟩]

def out0_9 (x0 : Vec F S512x1024 .f32) (x3 : Vec F S1024x1024 .bf16) (x6 : Vec F S1x1024 .f32) : Vec F S512x1024 .bf16 :=
  View.canon [⟨r0_0, k0_pay4 (View.ld x0 r0_0) (View.ld x3 r0_1) (View.ld x6 r0_2)⟩]

theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in

theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 x2 x3 : Vec F S1024x1024 .bf16) (x4 x5 x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x4) ∗ owns (c : Thread nD τ) arg9 fullShare (out0_8 x0 x2 x5) ∗ owns (c : Thread nD τ) arg10 fullShare (out0_9 x0 x3 x6)) -∗ K ⟨⟩))
      ⊢ wp frame (wpE (defs₀ (F := F)) Variants.none c none) E (cc0_proj_kernel i arg1 harg1 arg2 harg2 arg3 harg3 arg4 harg4 arg5 harg5 arg6 harg6 arg7 harg7 arg8 harg8 arg9 harg9 arg10 harg10) K := by
  simp only [cc0_proj_kernel_eq_skeleton]; unfold cc0_proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 4 t)
    | ⟨8, _⟩ => out0_8 (iblk0 V c 0 t) (iblk0 V c 2 t) (iblk0 V c 5 t)
    | ⟨9, _⟩ => out0_9 (iblk0 V c 0 t) (iblk0 V c 3 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 4 t) := by dsimp only [dat0]
theorem after0_8 (c : Dev nD) (t : Fin cfg0.N) : (dat0 V c).after 8 t = out0_8 (iblk0 V c 0 t) (iblk0 V c 2 t) (iblk0 V c 5 t) := by dsimp only [dat0]
theorem after0_9 (c : Dev nD) (t : Fin cfg0.N) : (dat0 V c).after 9 t = out0_9 (iblk0 V c 0 t) (iblk0 V c 3 t) (iblk0 V c 6 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) _)
  iframe
  isplitl [H7]; · iexists _; iexact H7
  isplitl [H8]; · iexists _; iexact H8
  isplitl [H9]; · iexists _; iexact H9
  iintro ⟨H0, H1, H2, H3, H4, H5, H6, H7, H8, H9⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.R1Body.lean ====
import proofs.«403451_j89893665506083_3_alg».proof.Proof.Gen.Kernel.Skeleton
import proofs.«403451_j89893665506083_3_alg».proof.Proof.Gen.Kernel.Launch
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev qiW (pf : pre1.Contents (Elt F)) (i : grid1.Coords) : Elt F .i32 := pf.atD 0 (k1_off1 i)

abbrev kiW (pf : pre1.Contents (Elt F)) (i : grid1.Coords) : Elt F .i32 := pf.atD 1 (k1_off1 i)

def initM : Vec F S512x1 .f32 := k1_pay1

def initL : Vec F S512x1 .f32 := k1_pay2

def initAcc : Vec F S512x1024 .f32 := k1_pay3

def offM (xq xk : Vec F S1x512x1024 .bf16) (sm : Vec F S512x1 .f32) : Vec F S512x1 .f32 :=
  k1_pay4 (k1_pay9 xq xk sm)

def offL (xq xk : Vec F S1x512x1024 .bf16) (sm sl : Vec F S512x1 .f32) : Vec F S512x1 .f32 :=
  k1_pay12 xq xk sm sl

def offAcc (xq xk xv : Vec F S1x512x1024 .bf16) (sm : Vec F S512x1 .f32) (sa : Vec F S512x1024 .f32) : Vec F S512x1024 .f32 :=
  k1_pay13 xq xk sm sa xv

def diagM (qi ki : Elt F .i32) (xq xk : Vec F S1x512x1024 .bf16) (sm : Vec F S512x1 .f32) : Vec F S512x1 .f32 :=
  k1_pay6 (k1_pay15 qi ki xq xk sm)

def diagL (qi ki : Elt F .i32) (xq xk : Vec F S1x512x1024 .bf16) (sm sl : Vec F S512x1 .f32) : Vec F S512x1 .f32 :=
  k1_pay18 qi ki xq xk sm sl

def diagAcc (qi ki : Elt F .i32) (xq xk xv : Vec F S1x512x1024 .bf16) (sm : Vec F S512x1 .f32) (sa : Vec F S512x1024 .f32) : Vec F S512x1024 .f32 :=
  k1_pay5 (k1_pay19 qi ki xq xk sm sa) (k1_pay20 qi ki xq xk sm) xv

def diagOut (qi ki : Elt F .i32) (xq xk xv : Vec F S1x512x1024 .bf16) (sm sl : Vec F S512x1 .f32) (sa : Vec F S512x1024 .f32) : Vec F S1x512x1024 .f32 :=
  k1_pay7 (diagAcc qi ki xq xk xv sm sa) (diagL qi ki xq xk sm sl)

abbrev newM_A (xq xk : Vec F S1x512x1024 .bf16) : Vec F S512x1 .f32 := offM xq xk initM
abbrev newL_A (xq xk : Vec F S1x512x1024 .bf16) : Vec F S512x1 .f32 := offL xq xk initM initL
abbrev newAcc_A (xq xk xv : Vec F S1x512x1024 .bf16) : Vec F S512x1024 .f32 := offAcc xq xk xv initM initAcc

abbrev newM_B (qi ki : Elt F .i32) (xq xk : Vec F S1x512x1024 .bf16) : Vec F S512x1 .f32 := diagM qi ki xq xk initM
abbrev newL_B (qi ki : Elt F .i32) (xq xk : Vec F S1x512x1024 .bf16) : Vec F S512x1 .f32 := diagL qi ki xq xk initM initL
abbrev newAcc_B (qi ki : Elt F .i32) (xq xk xv : Vec F S1x512x1024 .bf16) : Vec F S512x1024 .f32 := diagAcc qi ki xq xk xv initM initAcc
abbrev outBlk_B (qi ki : Elt F .i32) (xq xk xv : Vec F S1x512x1024 .bf16) : Vec F S1x512x1024 .f32 := diagOut qi ki xq xk xv initM initL initAcc

abbrev newM_C (xq xk : Vec F S1x512x1024 .bf16) (sm : Vec F S512x1 .f32) : Vec F S512x1 .f32 := offM xq xk sm
abbrev newL_C (xq xk : Vec F S1x512x1024 .bf16) (sm sl : Vec F S512x1 .f32) : Vec F S512x1 .f32 := offL xq xk sm sl
abbrev newAcc_C (xq xk xv : Vec F S1x512x1024 .bf16) (sm : Vec F S512x1 .f32) (sa : Vec F S512x1024 .f32) : Vec F S512x1024 .f32 := offAcc xq xk xv sm sa

abbrev newM_D (qi ki : Elt F .i32) (xq xk : Vec F S1x512x1024 .bf16) (sm : Vec F S512x1 .f32) : Vec F S512x1 .f32 := diagM qi ki xq xk sm
abbrev newL_D (qi ki : Elt F .i32) (xq xk : Vec F S1x512x1024 .bf16) (sm sl : Vec F S512x1 .f32) : Vec F S512x1 .f32 := diagL qi ki xq xk sm sl
abbrev newAcc_D (qi ki : Elt F .i32) (xq xk xv : Vec F S1x512x1024 .bf16) (sm : Vec F S512x1 .f32) (sa : Vec F S512x1024 .f32) : Vec F S512x1024 .f32 := diagAcc qi ki xq xk xv sm sa
abbrev outBlk_D (qi ki : Elt F .i32) (xq xk xv : Vec F S1x512x1024 .bf16) (sm sl : Vec F S512x1 .f32) (sa : Vec F S512x1024 .f32) : Vec F S1x512x1024 .f32 := diagOut qi ki xq xk xv sm sl sa

abbrev tbM1_0 : Memref sig .tc .smem S10 .i32 := Memref.whole main_c
abbrev tbM1_1 : Memref sig .tc .smem S10 .i32 := Memref.whole main_c_0

abbrev TbBuf1 (c : Dev nD) {S : Shape} {e : EltTy} (M : Memref sig .tc .smem S e) : Type := Buf (Elt F) (M.view.loc (c : Thread nD τ))
abbrev tbPt1 (c : Dev nD) (q : PosShare TreeShare) {S : Shape} {e : EltTy} (M : Memref sig .tc .smem S e) (f : TbBuf1 (F := F) c M) : sProp 𝕄 :=
  M.view.loc (c : Thread nD τ) ↦{q} f

theorem prefHeld1_eq (c : Dev nD) (q : PosShare TreeShare) (pf : pre1.Contents (Elt F)) :
    (Pipeline.prefHeld pre1 c (fun _ => q) pf : sProp 𝕄) = iprop(tbPt1 c q tbM1_0 (pf 0) ∗ tbPt1 c q tbM1_1 (pf 1)) := by
  unfold Pipeline.prefHeld
  rw [show (Finset.univ : Finset (Fin 2)) = insert (0 : Fin 2) {(1 : Fin 2)} from by decide,
    bigSep_insert (by decide), bigSep_singleton]
  rfl

theorem cond_of_bool (b : Bool) : (Scalar.cmpi .ne (Scalar.extui (BitVec.ofBool b)) 0#32 = 1#1) ↔ b = true := by
  cases b <;> decide

theorem cond1_iff (ki : BitVec 32) : (Scalar.cmpi .ne (Scalar.extui (Scalar.cmpi .eq ki 0#32)) 0#32 = 1#1) ↔ ki = 0#32 :=
  (cond_of_bool (ki == 0#32)).trans beq_iff_eq

theorem cond2_iff (qi ki : BitVec 32) : (Scalar.cmpi .ne (Scalar.extui (Scalar.cmpi .slt ki qi)) 0#32 = 1#1) ↔ BitVec.slt ki qi = true :=
  cond_of_bool (BitVec.slt ki qi)

theorem cond3_iff (qi ki : BitVec 32) : (k1_cond3 qi ki = 1#1) ↔ ki = qi :=
  (cond_of_bool (ki == qi)).trans beq_iff_eq

theorem slt_irrefl (a : BitVec 32) : BitVec.slt a a = false := by
  simp [BitVec.slt]

abbrev w1At (pf : pre1.Contents (Elt F)) (i : grid1.Coords) : Elt F .i32 :=
  View.readAt (Elt F) (tbM1_0).view (Rect.unit (s := S10) (k1_off1 i) S1.size (k1_off1_inb i)).toLoadRect (pf 0) (Shape.Idx.first (numel1_S1.symm ▸ Nat.one_pos))

abbrev w3At (pf : pre1.Contents (Elt F)) (i : grid1.Coords) : Elt F .i32 :=
  View.readAt (Elt F) (tbM1_1).view (Rect.unit (s := S10) (k1_off1 i) S1.size (k1_off1_inb i)).toLoadRect (pf 1) (Shape.Idx.first (numel1_S1.symm ▸ Nat.one_pos))

theorem w1At_eq (pf : pre1.Contents (Elt F)) (i : grid1.Coords) : w1At pf i = qiW pf i := by
  have h : ∀ a : Fin (pre1.ref 0).ty.shape.rank, k1_off1 i a + 1 ≤ (pre1.ref 0).ty.shape.size a := by
    intro a; have := k1_off1_inb i a
    match a with
    | ⟨0, _⟩ => exact this
  show (pf 0) ((Rect.unit (s := S10) (k1_off1 i) S1.size (k1_off1_inb i)).emb _) = dite _ _ _
  rw [dif_pos h]
  congr 1

theorem w3At_eq (pf : pre1.Contents (Elt F)) (i : grid1.Coords) : w3At pf i = kiW pf i := by
  have h : ∀ a : Fin (pre1.ref 1).ty.shape.rank, k1_off1 i a + 1 ≤ (pre1.ref 1).ty.shape.size a := by
    intro a; have := k1_off1_inb i a
    match a with
    | ⟨0, _⟩ => exact this
  show (pf 1) ((Rect.unit (s := S10) (k1_off1 i) S1.size (k1_off1_inb i)).emb _) = dite _ _ _
  rw [dif_pos h]
  congr 1

theorem c1_iff (pf : pre1.Contents (Elt F)) (i : grid1.Coords) :
    Scalar.cmpi .ne (Scalar.extui (Scalar.cmpi .eq (w3At pf i) 0#32)) 0#32 = 1#1 ↔ kiW pf i = 0#32 := by
  rw [cond1_iff, w3At_eq]
theorem c2_iff (pf : pre1.Contents (Elt F)) (i : grid1.Coords) :
    Scalar.cmpi .ne (Scalar.extui (Scalar.cmpi .slt (w3At pf i) (w1At pf i))) 0#32 = 1#1 ↔ BitVec.slt (kiW pf i) (qiW pf i) = true := by
  rw [cond2_iff, w3At_eq, w1At_eq]
theorem c3_iff (pf : pre1.Contents (Elt F)) (i : grid1.Coords) :
    k1_cond3 (w1At pf i) (w3At pf i) = 1#1 ↔ kiW pf i = qiW pf i := by
  rw [cond3_iff, w3At_eq, w1At_eq]
theorem ne_of_slt {a b : BitVec 32} (h : BitVec.slt a b = true) : a ≠ b :=
  fun e => by rw [e, slt_irrefl] at h; exact Bool.false_ne_true h
theorem not_slt_of_eq {a b : BitVec 32} (e : a = b) : ¬ BitVec.slt a b = true := by
  rw [e, slt_irrefl]; exact Bool.false_ne_true

theorem w1_eq (pf : pre1.Contents (Elt F)) (i : grid1.Coords) :
    View.readAt (Elt F) (tbM1_0).view (Rect.unit (s := S10) (k1_off1 i) S1.size (k1_off1_inb i)).toLoadRect (pf 0) (Shape.Idx.first (numel1_S1.symm ▸ Nat.one_pos)) = qiW pf i :=
  w1At_eq pf i

theorem w3_eq (pf : pre1.Contents (Elt F)) (i : grid1.Coords) :
    View.readAt (Elt F) (tbM1_1).view (Rect.unit (s := S10) (k1_off1 i) S1.size (k1_off1_inb i)).toLoadRect (pf 1) (Shape.Idx.first (numel1_S1.symm ▸ Nat.one_pos)) = kiW pf i :=
  w3At_eq pf i

section Whole

variable {Val : EltTy → Type} [∀ e, Nonempty (Val e)] {sg : RefSig} {kd : Kind} {sp : Space} {e : EltTy} {S : Shape}

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

theorem read_writes_head (v : View sg kd sp S e) (f : v.ty.Contents Val) {off : Fin S.rank → ℕ} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst hz
  rw [View.read_writes_eq_canon _ _ _ (fun y => ⟨_, List.mem_cons_self, by
      show y ∈ (Rect.whole S).set
      rw [Rect.set_whole]; exact Finset.mem_univ y⟩), View.canon_cons_unit_zero rfl]

theorem readAt_unit0 (v : View sg kd sp S e) (f : v.ty.Contents Val) {off : Fin S.rank → ℕ} (hz : off = fun _ => 0)
    (inb : ∀ a, off a + S.size a ≤ S.size a) :
    v.readAt Val (Rect.unit off S.size inb).toLoadRect f = v.read Val f := by
  rw [View.readAt_eq_ld, View.ld_unit_zero hz]

theorem rdW {arg : Memref sg kd sp S e} (harg : arg.IsWhole) (x : S.Idx → Val e) {off : Fin S.rank → ℕ} (hz : off = fun _ => 0)
    (inb : ∀ a, off a + S.size a ≤ S.size a) :
    arg.view.readAt Val (Rect.unit off S.size inb).toLoadRect (harg.unread x) = x := by
  rw [readAt_unit0 _ _ hz, harg.read_unread]

theorem rcW (v : View sg kd sp S e) {off : Fin S.rank → ℕ} (hz : off = fun _ => 0)
    (inb : ∀ a, off a + S.size a ≤ S.size a) (w : S.Idx → Val e) :
    v.readCov [(⟨Rect.unit off S.size inb, w⟩ : View.Piece Val S e)] (Rect.unit off S.size inb).toLoadRect = w :=
  View.readCov_unit_zero v hz inb w

end Whole

section Cases

variable (c : Dev nD) (i : grid1.Coords) (q : PosShare TreeShare) (pf : pre1.Contents (Elt F))
  (arg4 : Memref sig .tc .vmem S1x512x1024 .bf16) (harg4 : arg4.IsWhole) (arg5 : Memref sig .tc .vmem S1x512x1024 .bf16) (harg5 : arg5.IsWhole)
  (arg6 : Memref sig .tc .vmem S1x512x1024 .bf16) (harg6 : arg6.IsWhole) (arg7 : Memref sig .tc .vmem S1x512x1024 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1024 .f32) (harg10 : arg10.IsWhole) (xq xk xv : Vec F S1x512x1024 .bf16)

/-- The body's triple at a grid point: the tables and the three input blocks are held throughout; `P7 … P10` are what the
    output buffer and the three scratches hold before, `Q7 … Q10` after. -/
abbrev Tr1 (E : Set ℕ) (K : PUnit → sProp 𝕄) (P7 P8 P9 P10 Q7 Q8 Q9 Q10 : sProp 𝕄) : Prop :=
  iprop(Pipeline.prefHeld pre1 c (fun _ => q) pf
      ∗ owns (c : Thread nD τ) arg4 fullShare xq ∗ owns (c : Thread nD τ) arg5 fullShare xk ∗ owns (c : Thread nD τ) arg6 fullShare xv
      ∗ P7 ∗ P8 ∗ P9 ∗ P10
      ∗ (iprop(Pipeline.prefHeld pre1 c (fun _ => q) pf
          ∗ owns (c : Thread nD τ) arg4 fullShare xq ∗ owns (c : Thread nD τ) arg5 fullShare xk ∗ owns (c : Thread nD τ) arg6 fullShare xv
          ∗ Q7 ∗ Q8 ∗ Q9 ∗ Q10) -∗ K ⟨⟩))
    ⊢ wp frame (wpE (defs₀ (F := F)) Variants.none c none) E
        (cc1_attn_kernel i (Memref.whole main_c) (Memref.isWhole_whole _) (Memref.whole main_c_0) (Memref.isWhole_whole _)
          arg4 harg4 arg5 harg5 arg6 harg6 arg7 harg7 arg8 harg8 arg9 harg9 arg10 harg10) K

set_option maxHeartbeats 4000000 in
/-- Column tile first and left of the diagonal: the scratches restart, one unmasked update, the output untouched. -/
theorem sound_kernel1_A (d : Vec F S1x512x1024 .f32) (hk0 : kiW pf i = 0#32) (hlt : BitVec.slt (kiW pf i) (qiW pf i) = true)
    (E : Set ℕ) (K : PUnit → sProp 𝕄) :
    Tr1 c i q pf arg4 harg4 arg5 harg5 arg6 harg6 arg7 harg7 arg8 harg8 arg9 harg9 arg10 harg10 xq xk xv E K
      (owns (c : Thread nD τ) arg7 fullShare d) iprop(∃ s, owns (c : Thread nD τ) arg8 fullShare s) iprop(∃ s, owns (c : Thread nD τ) arg9 fullShare s) iprop(∃ s, owns (c : Thread nD τ) arg10 fullShare s)
      (owns (c : Thread nD τ) arg7 fullShare d) (owns (c : Thread nD τ) arg8 fullShare (newM_A xq xk)) (owns (c : Thread nD τ) arg9 fullShare (newL_A xq xk)) (owns (c : Thread nD τ) arg10 fullShare (newAcc_A xq xk xv)) := by
  have hc1 := (c1_iff pf i).mpr hk0
  have hc2 := (c2_iff pf i).mpr hlt
  have hc3 := mt (c3_iff pf i).mp (ne_of_slt hlt)
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%f7, %hf7, H7⟩, ⟨%s8, %f8, %hf8, H8⟩, ⟨%s9, %f9, %hf9, H9⟩, ⟨%s10, %f10, %hf10, H10⟩, Hk⟩
  obtain rfl := harg4.eq_unread hf4; obtain rfl := harg5.eq_unread hf5; obtain rfl := harg6.eq_unread hf6
  obtain rfl := harg7.eq_unread hf7
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; rotate_left; · iexact H8
    ipureintro
    refine (read_writes_head _ _ hz2 _ _ _).trans ?_
    unfold sound_kernel1_A.sl.r_2 sound_kernel1_A.sl.v18 sound_kernel1_A.sl.H8_1
    rw [rcW arg8.view hz2, rdW harg4 xq hz3, rdW harg5 xk hz3]; rfl
  isplitl [H9]
  · iexists _; isplitr; rotate_left; · iexact H9
    ipureintro
    refine (read_writes_head _ _ hz2 _ _ _).trans ?_
    unfold sound_kernel1_A.sl.v18 sound_kernel1_A.sl.v27 sound_kernel1_A.sl.H8_1 sound_kernel1_A.sl.H9_1
    rw [rcW arg8.view hz2, rcW arg9.view hz2, rdW harg4 xq hz3, rdW harg5 xk hz3]; rfl
  iexists _; isplitr; rotate_left; · iexact H10
  ipureintro
  refine (read_writes_head _ _ hz2 _ _ _).trans ?_
  unfold sound_kernel1_A.sl.v18 sound_kernel1_A.sl.v35 sound_kernel1_A.sl.H8_1 sound_kernel1_A.sl.H10_1
  rw [rcW arg8.view hz2, rcW arg10.view hz2, rdW harg4 xq hz3, rdW harg5 xk hz3, rdW harg6 xv hz3]; rfl

set_option maxHeartbeats 4000000 in
/-- Column tile first and on the diagonal: restart, one masked update, and the output block. -/
theorem sound_kernel1_B (hk0 : kiW pf i = 0#32) (heq : kiW pf i = qiW pf i) (E : Set ℕ) (K : PUnit → sProp 𝕄) :
    Tr1 c i q pf arg4 harg4 arg5 harg5 arg6 harg6 arg7 harg7 arg8 harg8 arg9 harg9 arg10 harg10 xq xk xv E K
      iprop(∃ d, owns (c : Thread nD τ) arg7 fullShare d) iprop(∃ s, owns (c : Thread nD τ) arg8 fullShare s) iprop(∃ s, owns (c : Thread nD τ) arg9 fullShare s) iprop(∃ s, owns (c : Thread nD τ) arg10 fullShare s)
      (owns (c : Thread nD τ) arg7 fullShare (outBlk_B (qiW pf i) (kiW pf i) xq xk xv)) (owns (c : Thread nD τ) arg8 fullShare (newM_B (qiW pf i) (kiW pf i) xq xk)) (owns (c : Thread nD τ) arg9 fullShare (newL_B (qiW pf i) (kiW pf i) xq xk)) (owns (c : Thread nD τ) arg10 fullShare (newAcc_B (qiW pf i) (kiW pf i) xq xk xv)) := by
  have hc1 := (c1_iff pf i).mpr hk0
  have hc2 := mt (c2_iff pf i).mp (not_slt_of_eq heq)
  have hc3 := (c3_iff pf i).mpr heq
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%d7, %f7, %hf7, H7⟩, ⟨%s8, %f8, %hf8, H8⟩, ⟨%s9, %f9, %hf9, H9⟩, ⟨%s10, %f10, %hf10, H10⟩, Hk⟩
  obtain rfl := harg4.eq_unread hf4; obtain rfl := harg5.eq_unread hf5; obtain rfl := harg6.eq_unread hf6
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro
    refine (read_writes_head _ _ hz3 _ _ _).trans ?_
    unfold sound_kernel1_B.sl.v60 sound_kernel1_B.sl.v61 sound_kernel1_B.sl.H10_2 sound_kernel1_B.sl.H9_2
    rw [View.readCov_cons_toLoadRect, View.readCov_cons_toLoadRect]
    unfold sound_kernel1_B.sl.r_3 sound_kernel1_B.sl.r_4 sound_kernel1_B.sl.r sound_kernel1_B.sl.r_1 sound_kernel1_B.sl.v29 sound_kernel1_B.sl.v38 sound_kernel1_B.sl.v46 sound_kernel1_B.sl.H8_1 sound_kernel1_B.sl.H9_1 sound_kernel1_B.sl.H10_1
    rw [rcW arg8.view hz2, rcW arg9.view hz2, rcW arg10.view hz2, w1_eq, w3_eq, rdW harg4 xq hz3, rdW harg5 xk hz3, rdW harg6 xv hz3]; rfl
  isplitl [H8]
  · iexists _; isplitr; rotate_left; · iexact H8
    ipureintro
    refine (read_writes_head _ _ hz2 _ _ _).trans ?_
    unfold sound_kernel1_B.sl.r_2 sound_kernel1_B.sl.v29 sound_kernel1_B.sl.r sound_kernel1_B.sl.r_1 sound_kernel1_B.sl.H8_1
    rw [rcW arg8.view hz2, w1_eq, w3_eq, rdW harg4 xq hz3, rdW harg5 xk hz3]; rfl
  isplitl [H9]
  · iexists _; isplitr; rotate_left; · iexact H9
    ipureintro
    refine (read_writes_head _ _ hz2 _ _ _).trans ?_
    unfold sound_kernel1_B.sl.r sound_kernel1_B.sl.r_1 sound_kernel1_B.sl.v29 sound_kernel1_B.sl.v38 sound_kernel1_B.sl.H8_1 sound_kernel1_B.sl.H9_1
    rw [rcW arg8.view hz2, rcW arg9.view hz2, w1_eq, w3_eq, rdW harg4 xq hz3, rdW harg5 xk hz3]; rfl
  iexists _; isplitr; rotate_left; · iexact H10
  ipureintro
  refine (read_writes_head _ _ hz2 _ _ _).trans ?_
  unfold sound_kernel1_B.sl.r_3 sound_kernel1_B.sl.r_4 sound_kernel1_B.sl.r sound_kernel1_B.sl.r_1 sound_kernel1_B.sl.v29 sound_kernel1_B.sl.v46 sound_kernel1_B.sl.H8_1 sound_kernel1_B.sl.H10_1
  rw [rcW arg8.view hz2, rcW arg10.view hz2, w1_eq, w3_eq, rdW harg4 xq hz3, rdW harg5 xk hz3, rdW harg6 xv hz3]; rfl

set_option maxHeartbeats 4000000 in
/-- A later column tile left of the diagonal: one unmasked update of the scratches, the output untouched. -/
theorem sound_kernel1_C (d : Vec F S1x512x1024 .f32) (sm sl : Vec F S512x1 .f32) (sa : Vec F S512x1024 .f32)
    (hk0 : kiW pf i ≠ 0#32) (hlt : BitVec.slt (kiW pf i) (qiW pf i) = true) (E : Set ℕ) (K : PUnit → sProp 𝕄) :
    Tr1 c i q pf arg4 harg4 arg5 harg5 arg6 harg6 arg7 harg7 arg8 harg8 arg9 harg9 arg10 harg10 xq xk xv E K
      (owns (c : Thread nD τ) arg7 fullShare d) (owns (c : Thread nD τ) arg8 fullShare sm) (owns (c : Thread nD τ) arg9 fullShare sl) (owns (c : Thread nD τ) arg10 fullShare sa)
      (owns (c : Thread nD τ) arg7 fullShare d) (owns (c : Thread nD τ) arg8 fullShare (newM_C xq xk sm)) (owns (c : Thread nD τ) arg9 fullShare (newL_C xq xk sm sl)) (owns (c : Thread nD τ) arg10 fullShare (newAcc_C xq xk xv sm sa)) := by
  have hc1 := mt (c1_iff pf i).mp hk0
  have hc2 := (c2_iff pf i).mpr hlt
  have hc3 := mt (c3_iff pf i).mp (ne_of_slt hlt)
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg7.eq_unread hf7; obtain rfl := harg8.eq_unread hf8; obtain rfl := harg9.eq_unread hf9; obtain rfl := harg10.eq_unread hf10
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; rotate_left; · iexact H8
    ipureintro
    refine (read_writes_head _ _ hz2 _ _ _).trans ?_
    unfold sound_kernel1_C.sl.r_2
    rw [rdW harg4 xq hz3, rdW harg5 xk hz3, rdW harg8 sm hz2]; rfl
  isplitl [H9]
  · iexists _; isplitr; rotate_left; · iexact H9
    ipureintro
    refine (read_writes_head _ _ hz2 _ _ _).trans ?_
    rw [rdW harg4 xq hz3, rdW harg5 xk hz3, rdW harg8 sm hz2, rdW harg9 sl hz2]; rfl
  iexists _; isplitr; rotate_left; · iexact H10
  ipureintro
  refine (read_writes_head _ _ hz2 _ _ _).trans ?_
  rw [rdW harg4 xq hz3, rdW harg5 xk hz3, rdW harg6 xv hz3, rdW harg8 sm hz2, rdW harg10 sa hz2]; rfl

set_option maxHeartbeats 4000000 in
/-- A later column tile on the diagonal: one masked update of the scratches, and the output block. -/
theorem sound_kernel1_D (sm sl : Vec F S512x1 .f32) (sa : Vec F S512x1024 .f32)
    (hk0 : kiW pf i ≠ 0#32) (heq : kiW pf i = qiW pf i) (E : Set ℕ) (K : PUnit → sProp 𝕄) :
    Tr1 c i q pf arg4 harg4 arg5 harg5 arg6 harg6 arg7 harg7 arg8 harg8 arg9 harg9 arg10 harg10 xq xk xv E K
      iprop(∃ d, owns (c : Thread nD τ) arg7 fullShare d) (owns (c : Thread nD τ) arg8 fullShare sm) (owns (c : Thread nD τ) arg9 fullShare sl) (owns (c : Thread nD τ) arg10 fullShare sa)
      (owns (c : Thread nD τ) arg7 fullShare (outBlk_D (qiW pf i) (kiW pf i) xq xk xv sm sl sa)) (owns (c : Thread nD τ) arg8 fullShare (newM_D (qiW pf i) (kiW pf i) xq xk sm)) (owns (c : Thread nD τ) arg9 fullShare (newL_D (qiW pf i) (kiW pf i) xq xk sm sl)) (owns (c : Thread nD τ) arg10 fullShare (newAcc_D (qiW pf i) (kiW pf i) xq xk xv sm sa)) := by
  have hc1 := mt (c1_iff pf i).mp hk0
  have hc2 := mt (c2_iff pf i).mp (not_slt_of_eq heq)
  have hc3 := (c3_iff pf i).mpr heq
  unfold Tr1
  rw [prefHeld1_eq]
  simp only [cc1_attn_kernel_eq_skeleton]; unfold cc1_attn_kernel_skel
  simp only [k1_part1_eq_skeleton, k1_part2_eq_skeleton]
  unfold owns
  iintro ⟨⟨HT0, HT1⟩, ⟨%f4, %hf4, H4⟩, ⟨%f5, %hf5, H5⟩, ⟨%f6, %hf6, H6⟩, ⟨%d7, %f7, %hf7, H7⟩, ⟨%f8, %hf8, H8⟩, ⟨%f9, %hf9, H9⟩, ⟨%f10, %hf10, H10⟩, Hk⟩
  obtain rfl := harg4.eq_unread hf4; obtain rfl := harg5.eq_unread hf5; obtain rfl := harg6.eq_unread hf6
  obtain rfl := harg8.eq_unread hf8; obtain rfl := harg9.eq_unread hf9; obtain rfl := harg10.eq_unread hf10
  sl_exec (disch := first | sl_exact hc1 | sl_exact hc2 | sl_exact hc3)
  sl_step
  iapply Hk
  isplitl [HT0 HT1]
  · isplitl [HT0]; · iexact HT0
    iexact HT1
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; rotate_left; · iexact H7
    ipureintro
    refine (read_writes_head _ _ hz3 _ _ _).trans ?_
    unfold sound_kernel1_D.sl.v60 sound_kernel1_D.sl.v61 sound_kernel1_D.sl.H10_1 sound_kernel1_D.sl.H9_1 sound_kernel1_D.sl.r_3 sound_kernel1_D.sl.r_4 sound_kernel1_D.sl.r sound_kernel1_D.sl.r_1
    rw [rcW arg10.view hz2, rcW arg9.view hz2, w1_eq, w3_eq, rdW harg4 xq hz3, rdW harg5 xk hz3, rdW harg6 xv hz3, rdW harg8 sm hz2, rdW harg9 sl hz2, rdW harg10 sa hz2]; rfl
  isplitl [H8]
  · iexists _; isplitr; rotate_left; · iexact H8
    ipureintro
    refine (read_writes_head _ _ hz2 _ _ _).trans ?_
    unfold sound_kernel1_D.sl.r_2 sound_kernel1_D.sl.r sound_kernel1_D.sl.r_1
    rw [w1_eq, w3_eq, rdW harg4 xq hz3, rdW harg5 xk hz3, rdW harg8 sm hz2]; rfl
  isplitl [H9]
  · iexists _; isplitr; rotate_left; · iexact H9
    ipureintro
    refine (read_writes_head _ _ hz2 _ _ _).trans ?_
    unfold sound_kernel1_D.sl.r sound_kernel1_D.sl.r_1
    rw [w1_eq, w3_eq, rdW harg4 xq hz3, rdW harg5 xk hz3, rdW harg8 sm hz2, rdW harg9 sl hz2]; rfl
  iexists _; isplitr; rotate_left; · iexact H10
  ipureintro
  refine (read_writes_head _ _ hz2 _ _ _).trans ?_
  unfold sound_kernel1_D.sl.r_3 sound_kernel1_D.sl.r_4 sound_kernel1_D.sl.r sound_kernel1_D.sl.r_1
  rw [w1_eq, w3_eq, rdW harg4 xq hz3, rdW harg5 xk hz3, rdW harg6 xv hz3, rdW harg8 sm hz2, rdW harg10 sa hz2]; rfl

end Cases

end Cert.Kernel.Hand

end
-- ==== Proof.Bits.R1Data.lean ====
import proofs.«403451_j89893665506083_3_alg».proof.Proof.Gen.Kernel.Launch
import proofs.«403451_j89893665506083_3_alg».proof.Proof.Gen.Kernel.Skeleton
import proofs.«403451_j89893665506083_3_alg».proof.Proof.Gen.Kernel.Points
import Idealize.ShloMosaic.Lib.Pipeline.FrameBody
import Idealize.ShloMosaic.Lib.Pipeline.Regions
import Idealize.ShloMosaic.Lib.Pipeline.FrameSuffix
import Idealize.ShloMosaic.Lib.Tactic
import proofs.«403451_j89893665506083_3_alg».proof.Proof.Bits.R1Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf prefHeld)
open Cert.Kernel.Gen

variable {F : FTy → Type} [FloatOps F]

local notation "𝕄" => MT nD τ sig Unit (Elt F) ℕ (UR sig nD τ) ℕ

abbrev Scr1 (F : FTy → Type) [FloatOps F] : Type :=
  Vec F S512x1 .f32 × Vec F S512x1 .f32 × Vec F S512x1024 .f32

abbrev Pt1 (F : FTy → Type) [FloatOps F] : Type := Vec F S1x512x1024 .f32 × Scr1 F

def stepA (xq xk xv : Vec F S1x512x1024 .bf16) : Scr1 F :=
  (newM_A xq xk, newL_A xq xk, newAcc_A xq xk xv)

def stepB (v1 v3 : Elt F .i32) (xq xk xv : Vec F S1x512x1024 .bf16) : Pt1 F :=
  (outBlk_B v1 v3 xq xk xv, newM_B v1 v3 xq xk, newL_B v1 v3 xq xk, newAcc_B v1 v3 xq xk xv)

def stepC (xq xk xv : Vec F S1x512x1024 .bf16) (s : Scr1 F) : Scr1 F :=
  (newM_C xq xk s.1, newL_C xq xk s.1 s.2.1, newAcc_C xq xk xv s.1 s.2.2)

def stepD (v1 v3 : Elt F .i32) (xq xk xv : Vec F S1x512x1024 .bf16) (s : Scr1 F) : Pt1 F :=
  (outBlk_D v1 v3 xq xk xv s.1 s.2.1 s.2.2, newM_D v1 v3 xq xk s.1, newL_D v1 v3 xq xk s.1 s.2.1, newAcc_D v1 v3 xq xk xv s.1 s.2.2)

section Region1
variable (V : (c : Dev nD) → (b : Ref sig .tc) → Buf (Elt F) ((c : Thread nD τ).loc b))
variable (a : (pcfg1 (F := F)).Adm)

structure Sched1 : Prop where
  le : ∀ t : Fin (cfg1 a).N, (kiW a.1 (grid1.coords t)).slt (qiW a.1 (grid1.coords t)) = true ∨ kiW a.1 (grid1.coords t) = qiW a.1 (grid1.coords t)
  first : ∀ h : 0 < (cfg1 a).N, kiW a.1 (grid1.coords ⟨0, h⟩) = 0#32
  noFlush : ∀ t : Fin (cfg1 a).N, kiW a.1 (grid1.coords t) ≠ qiW a.1 (grid1.coords t) → ((cfg1 a).win 3).flush t = false

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

def junk1 : Pt1 F :=
  (fun _ => (Elt.inhabited F .f32).default, fun _ => (Elt.inhabited F .f32).default,
   fun _ => (Elt.inhabited F .f32).default, fun _ => (Elt.inhabited F .f32).default)

def pt1 (c : Dev nD) (t : Fin (cfg1 a).N) (p : Pt1 F) : Pt1 F :=
  if kiW a.1 (grid1.coords t) = 0#32 then
    if kiW a.1 (grid1.coords t) = qiW a.1 (grid1.coords t) then
      stepB (qiW a.1 (grid1.coords t)) (kiW a.1 (grid1.coords t)) (iblk1 V a c 0 t) (iblk1 V a c 1 t) (iblk1 V a c 2 t)
    else
      (p.1, stepA (iblk1 V a c 0 t) (iblk1 V a c 1 t) (iblk1 V a c 2 t))
  else
    if kiW a.1 (grid1.coords t) = qiW a.1 (grid1.coords t) then
      stepD (qiW a.1 (grid1.coords t)) (kiW a.1 (grid1.coords t)) (iblk1 V a c 0 t) (iblk1 V a c 1 t) (iblk1 V a c 2 t) p.2
    else
      (p.1, stepC (iblk1 V a c 0 t) (iblk1 V a c 1 t) (iblk1 V a c 2 t) p.2)

def outsAt1 (c : Dev nD) : (n : ℕ) → n < (cfg1 a).N → Pt1 F
  | 0, hn => pt1 V a c ⟨0, hn⟩ junk1
  | n + 1, hn => pt1 V a c ⟨n + 1, hn⟩ (outsAt1 c n (Nat.lt_of_succ_lt hn))

def prev1 (c : Dev nD) (t : Fin (cfg1 a).N) : Pt1 F :=
  if hz : t.val = 0 then junk1 else outsAt1 V a c (t.val - 1) (Nat.lt_of_le_of_lt (Nat.sub_le _ _) t.isLt)

theorem outsAt1_eq (c : Dev nD) (t : Fin (cfg1 a).N) : outsAt1 V a c t.val t.isLt = pt1 V a c t (prev1 V a c t) := by
  obtain ⟨n, hn⟩ := t
  cases n with
  | zero => unfold prev1; rw [dif_pos rfl]; rfl
  | succ n => unfold prev1; rw [dif_neg (Nat.succ_ne_zero n)]; rfl

def scr1At (c : Dev nD) (s : Scr1 F) : sProp 𝕄 :=
  iprop(owns (c : Thread nD τ) (Memref.whole cc1_scratch0 : Memref sig .tc .vmem S512x1 .f32) fullShare s.1
    ∗ owns (c : Thread nD τ) (Memref.whole cc1_scratch1 : Memref sig .tc .vmem S512x1 .f32) fullShare s.2.1
    ∗ owns (c : Thread nD τ) (Memref.whole cc1_scratch2 : Memref sig .tc .vmem S512x1024 .f32) fullShare s.2.2)

def scr1Any (c : Dev nD) : sProp 𝕄 :=
  iprop((∃ d, owns (c : Thread nD τ) (Memref.whole cc1_scratch0 : Memref sig .tc .vmem S512x1 .f32) fullShare d)
    ∗ (∃ d, owns (c : Thread nD τ) (Memref.whole cc1_scratch1 : Memref sig .tc .vmem S512x1 .f32) fullShare d)
    ∗ (∃ d, owns (c : Thread nD τ) (Memref.whole cc1_scratch2 : Memref sig .tc .vmem S512x1024 .f32) fullShare d))

theorem scr1Any_of_At (c : Dev nD) (s : Scr1 F) : (scr1At c s : sProp 𝕄) ⊢ scr1Any (F := F) c := by
  unfold scr1At scr1Any
  iintro ⟨S0, S1, S2⟩
  isplitl [S0]; · iexists _; iexact S0
  isplitl [S1]; · iexists _; iexact S1
  iexists _; iexact S2

/-- Core `c`'s buffer `b` held whole at some contents. -/
abbrev anyAt (c : Dev nD) (b : Ref sig .tc) : sProp 𝕄 :=
  iprop(∃ f : Buf (Elt F) ((c : Thread nD τ).loc b), ((c : Thread nD τ).loc b) ↦{fullShare} f)

def stg0Any (c : Dev nD) : sProp 𝕄 :=
  iprop(anyAt c cc0_stg0_0 ∗ anyAt c cc0_stg0_1 ∗ anyAt c cc0_stg1_0 ∗ anyAt c cc0_stg2_0 ∗ anyAt c cc0_stg3_0 ∗ anyAt c cc0_stg4_0 ∗ anyAt c cc0_stg5_0 ∗ anyAt c cc0_stg6_0 ∗ anyAt c cc0_stg7_0 ∗ anyAt c cc0_stg7_1 ∗ anyAt c cc0_stg8_0 ∗ anyAt c cc0_stg8_1 ∗ anyAt c cc0_stg9_0 ∗ anyAt c cc0_stg9_1)

def PhiS1 (c : Dev nD) : (n : ℕ) → n ≤ (cfg1 a).N → sProp 𝕄
  | 0, _ => iprop(prefHeld pre1 c (fun _ => fullShare) a.1 ∗ (∃ r, prngReg c r) ∗ stg0Any (F := F) c ∗ scr1Any (F := F) c)
  | n + 1, hn => iprop(prefHeld pre1 c (fun _ => fullShare) a.1 ∗ (∃ r, prngReg c r) ∗ stg0Any (F := F) c ∗ scr1At c (outsAt1 V a c n hn).2)

theorem PhiS1_zero (c : Dev nD) (n : ℕ) (h : n ≤ (cfg1 a).N) (hz : n = 0) :
    PhiS1 V a c n h = iprop(prefHeld pre1 c (fun _ => fullShare) a.1 ∗ (∃ r, prngReg c r) ∗ stg0Any (F := F) c ∗ scr1Any (F := F) c) := by
  subst hz; rfl
theorem PhiS1_succ (c : Dev nD) (n : ℕ) (hn : n < (cfg1 a).N) :
    PhiS1 V a c (n + 1) hn = iprop(prefHeld pre1 c (fun _ => fullShare) a.1 ∗ (∃ r, prngReg c r) ∗ stg0Any (F := F) c ∗ scr1At c (outsAt1 V a c n hn).2) := rfl
theorem PhiS1_pos (c : Dev nD) (n : ℕ) (h : n ≤ (cfg1 a).N) (hz : n ≠ 0) :
    PhiS1 V a c n h = iprop(prefHeld pre1 c (fun _ => fullShare) a.1 ∗ (∃ r, prngReg c r) ∗ stg0Any (F := F) c ∗ scr1At c (outsAt1 V a c (n - 1) (by omega)).2) := by
  cases n with
  | zero => exact absurd rfl hz
  | succ n => rfl

theorem scopedRest1_split (c : Dev nD) :
    (Pipeline.scopedRest spec1 c : sProp 𝕄) ⊣⊢ iprop(stg0Any (F := F) c ∗ scr1Any (F := F) c) := by
  rw [scopedRest1_eq]; unfold stg0Any scr1Any anyAt; simp only [owns_whole]
  constructor
  · iintro ⟨H0, H1, H2, H3, H4, H5, H6, H7, H8, H9, H10, H11, H12, H13, S0, S1, S2⟩
    isplitr [S0 S1 S2]
    · iframe
    · iframe
  · iintro ⟨⟨H0, H1, H2, H3, H4, H5, H6, H7, H8, H9, H10, H11, H12, H13⟩, S0, S1, S2⟩
    iframe

def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => (outsAt1 V a c t.val t.isLt).1
  Φ t := PhiS1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]
theorem PhiS1_castSucc (c : Dev nD) (t : Fin (cfg1 a).N) : (dat1 V a c).Φ t.castSucc = PhiS1 V a c t.val (Nat.le_of_lt t.isLt) := by
  dsimp only [dat1]; simp only [Fin.coe_castSucc]
theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = (outsAt1 V a c t.val t.isLt).1 := by dsimp only [dat1]; rfl

theorem before1_0 (c : Dev nD) (t : Fin (cfg1 a).N) (d) : (dat1 V a c).before 0 t d = iblk1 V a c 0 t :=
  ((dat1 V a c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfg1 a).N) (d) : (dat1 V a c).before 1 t d = iblk1 V a c 1 t :=
  ((dat1 V a c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfg1 a).N) (d) : (dat1 V a c).before 2 t d = iblk1 V a c 2 t :=
  ((dat1 V a c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

def bodyPre1 (c : Dev nD) (t : Fin (cfg1 a).N) : sProp 𝕄 :=
  iprop((dat1 V a c).Φ t.castSucc ∗ (dat1 V a c).owesAt () t.castSucc
    ∗ (∃ d, owns (c : Thread nD τ) (((cfg1 a).win 0).stage ((cfg1 a).slots t 0)) fullShare ((dat1 V a c).before 0 t d))
    ∗ (∃ d, owns (c : Thread nD τ) (((cfg1 a).win 1).stage ((cfg1 a).slots t 1)) fullShare ((dat1 V a c).before 1 t d))
    ∗ (∃ d, owns (c : Thread nD τ) (((cfg1 a).win 2).stage ((cfg1 a).slots t 2)) fullShare ((dat1 V a c).before 2 t d))
    ∗ (∃ d, owns (c : Thread nD τ) (((cfg1 a).win 3).stage ((cfg1 a).slots t 3)) fullShare ((dat1 V a c).before 3 t d)))

def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

abbrev bodyAt1 (t : Fin (cfg1 a).N) : Prog (TpuEff nD τ sig (Elt F) Λ₀ .tc) PUnit :=
  cc1_attn_kernel (grid1.coords t) (Memref.whole main_c) (Memref.isWhole_whole _) (Memref.whole main_c_0) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))
    (spec1_3.stage ((cfg1 a).slots t 3)) (hstage1_3 (((cfg1 a).slots t 3).cast nbuf1_3))
    (Memref.whole cc1_scratch0) (Memref.isWhole_whole _) (Memref.whole cc1_scratch1) (Memref.isWhole_whole _) (Memref.whole cc1_scratch2) (Memref.isWhole_whole _)

theorem liveAt1_0 (i : grid1.Coords) : (cfg1 a).idle 0 i = false := rfl
theorem liveAt1_1 (i : grid1.Coords) : (cfg1 a).idle 1 i = false := rfl
theorem liveAt1_2 (i : grid1.Coords) : (cfg1 a).idle 2 i = false := rfl

theorem liveAt1_3 (i : grid1.Coords) (hd : kiW a.1 i = qiW a.1 i) : (cfg1 a).idle 3 i = false := by
  show (!(k1_cond3 (qiW a.1 i) (kiW a.1 i) == 1#1)) = false
  rw [(cond3_iff _ _).mpr hd]; rfl

theorem idleAt1_3 (i : grid1.Coords) (hd : kiW a.1 i ≠ qiW a.1 i) : (cfg1 a).idle 3 i = true := by
  show (!(k1_cond3 (qiW a.1 i) (kiW a.1 i) == 1#1)) = true
  have : ¬ k1_cond3 (qiW a.1 i) (kiW a.1 i) = 1#1 := fun h => hd ((cond3_iff _ _).mp h)
  rw [Bool.not_eq_true', beq_eq_false_iff_ne]; exact this

theorem leaves1_0 (c : Dev nD) (t : Fin (cfg1 a).N) :
    (dat1 V a c).leavesExact 0 t = owns (c : Thread nD τ) (((cfg1 a).win 0).stage ((cfg1 a).slots t 0)) fullShare (iblk1 V a c 0 t) := by
  unfold Dat.leavesExact; rw [liveAt1_0 a, after1_0]
theorem leaves1_1 (c : Dev nD) (t : Fin (cfg1 a).N) :
    (dat1 V a c).leavesExact 1 t = owns (c : Thread nD τ) (((cfg1 a).win 1).stage ((cfg1 a).slots t 1)) fullShare (iblk1 V a c 1 t) := by
  unfold Dat.leavesExact; rw [liveAt1_1 a, after1_1]
theorem leaves1_2 (c : Dev nD) (t : Fin (cfg1 a).N) :
    (dat1 V a c).leavesExact 2 t = owns (c : Thread nD τ) (((cfg1 a).win 2).stage ((cfg1 a).slots t 2)) fullShare (iblk1 V a c 2 t) := by
  unfold Dat.leavesExact; rw [liveAt1_2 a, after1_2]

theorem leaves1_3_diag (c : Dev nD) (t : Fin (cfg1 a).N) (hd : kiW a.1 (grid1.coords t) = qiW a.1 (grid1.coords t)) :
    (dat1 V a c).leavesExact 3 t = owns (c : Thread nD τ) (((cfg1 a).win 3).stage ((cfg1 a).slots t 3)) fullShare (outsAt1 V a c t.val t.isLt).1 := by
  unfold Dat.leavesExact; rw [liveAt1_3 a _ hd, after1_3]

theorem PhiS1_any (c : Dev nD) (n : ℕ) (h : n ≤ (cfg1 a).N) :
    PhiS1 V a c n h ⊢ (iprop(prefHeld pre1 c (fun _ => fullShare) a.1 ∗ (∃ r, prngReg c r) ∗ stg0Any (F := F) c ∗ scr1Any (F := F) c) : sProp 𝕄) := by
  by_cases hz : n = 0
  · rw [PhiS1_zero V a c n h hz]
  · rw [PhiS1_pos V a c n h hz]
    iintro ⟨Hpf, Hg, Hs, Hc⟩
    ihave Hc := (scr1Any_of_At c _) $$ Hc
    iframe

theorem prev1_pos (c : Dev nD) (t : Fin (cfg1 a).N) (hz : t.val ≠ 0) :
    prev1 V a c t = outsAt1 V a c (t.val - 1) (Nat.lt_of_le_of_lt (Nat.sub_le _ _) t.isLt) := by
  unfold prev1; rw [dif_neg hz]

theorem pos_of_ki_ne (hS : Sched1 a) (t : Fin (cfg1 a).N) (h0 : kiW a.1 (grid1.coords t) ≠ 0#32) : t.val ≠ 0 := by
  obtain ⟨n, hn⟩ := t
  intro hz
  have hz' : n = 0 := hz
  subst hz'
  exact h0 (hS.first hn)

/-- The body at any point, by the control case the two table words select there. -/
theorem sound_body1 (hS : Sched1 a) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1
  simp only [before1_0, before1_1, before1_2]
  rw [show (dat1 V a c).owesAt () t.succ = (dat1 V a c).owesAt () t.castSucc from rfl,
    show (dat1 V a c).Φ t.succ = PhiS1 V a c (t.val + 1) t.isLt from rfl, PhiS1_succ, PhiS1_castSucc,
    leaves1_0, leaves1_1, leaves1_2]
  by_cases h0 : kiW a.1 (grid1.coords t) = 0#32 <;> by_cases hd : kiW a.1 (grid1.coords t) = qiW a.1 (grid1.coords t)
  · rw [leaves1_3_diag V a c t hd, outsAt1_eq]; unfold pt1; rw [if_pos h0, if_pos hd]
    unfold scr1At stepB; dsimp only
    iintro ⟨HΦ, Ho, ⟨%d0, H0⟩, ⟨%d1, H1⟩, ⟨%d2, H2⟩, ⟨%d3, H3⟩⟩
    ihave HΦ := (PhiS1_any V a c _ _) $$ HΦ
    icases HΦ with ⟨Hpf, Hg, Hs, Hc⟩
    unfold scr1Any
    icases Hc with ⟨S0, S1, S2⟩
    iapply (sound_kernel1_B c (grid1.coords t) fullShare a.1 _ _ _ _ _ _ _ _ _ _ _ _ _ _
      (iblk1 V a c 0 t) (iblk1 V a c 1 t) (iblk1 V a c 2 t) h0 hd Set.univ _)
    isplitl [Hpf]; · iexact Hpf
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexact H3
  · have hlt : BitVec.slt (kiW a.1 (grid1.coords t)) (qiW a.1 (grid1.coords t)) = true := (hS.le t).resolve_right hd
    rw [Dat.leavesExact_idle (dat1 V a c) 3 t (idleAt1_3 a _ hd) (hS.noFlush t hd), outsAt1_eq]; unfold pt1; rw [if_pos h0, if_neg hd]
    unfold scr1At stepA; dsimp only
    iintro ⟨HΦ, Ho, ⟨%d0, H0⟩, ⟨%d1, H1⟩, ⟨%d2, H2⟩, ⟨%d3, H3⟩⟩
    ihave HΦ := (PhiS1_any V a c _ _) $$ HΦ
    icases HΦ with ⟨Hpf, Hg, Hs, Hc⟩
    unfold scr1Any
    icases Hc with ⟨S0, S1, S2⟩
    iapply (sound_kernel1_A c (grid1.coords t) fullShare a.1 _ _ _ _ _ _ _ _ _ _ _ _ _ _
      (iblk1 V a c 0 t) (iblk1 V a c 1 t) (iblk1 V a c 2 t) ((dat1 V a c).before 3 t d3) h0 hlt Set.univ _)
    isplitl [Hpf]; · iexact Hpf
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexists _; iexact H3
  · have hz : t.val ≠ 0 := pos_of_ki_ne a hS t h0
    rw [PhiS1_pos V a c _ _ hz, leaves1_3_diag V a c t hd, outsAt1_eq]; unfold pt1; rw [if_neg h0, if_pos hd, prev1_pos V a c t hz]
    unfold scr1At stepD; dsimp only
    iintro ⟨⟨Hpf, Hg, Hs, S0, S1, S2⟩, Ho, ⟨%d0, H0⟩, ⟨%d1, H1⟩, ⟨%d2, H2⟩, ⟨%d3, H3⟩⟩
    iapply (sound_kernel1_D c (grid1.coords t) fullShare a.1 _ _ _ _ _ _ _ _ _ _ _ _ _ _
      (iblk1 V a c 0 t) (iblk1 V a c 1 t) (iblk1 V a c 2 t) _ _ _ h0 hd Set.univ _)
    isplitl [Hpf]; · iexact Hpf
    isplitl [H0]; · iexact H0
    isplitl [H1]; · iexact H1
    isplitl [H2]; · iexact H2
    isplitl [H3]; · iexists _; iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexact H3
  · have hlt : BitVec.slt (kiW a.1 (grid1.coords t)) (qiW a.1 (grid1.coords t)) = true := (hS.le t).resolve_right hd
    have hz : t.val ≠ 0 := pos_of_ki_ne a hS t h0
    rw [PhiS1_pos V a c _ _ hz, Dat.leavesExact_idle (dat1 V a c) 3 t (idleAt1_3 a _ hd) (hS.noFlush t hd), outsAt1_eq]; unfold pt1; rw [if_neg h0, if_neg hd, prev1_pos V a c t hz]
    unfold scr1At stepC; dsimp only
    iintro ⟨⟨Hpf, Hg, Hs, S0, S1, S2⟩, Ho, ⟨%d0, H0⟩, ⟨%d1, H1⟩, ⟨%d2, H2⟩, ⟨%d3, H3⟩⟩
    iapply (sound_kernel1_C c (grid1.coords t) fullShare a.1 _ _ _ _ _ _ _ _ _ _ _ _ _ _
      (iblk1 V a c 0 t) (iblk1 V a c 1 t) (iblk1 V a c 2 t) ((dat1 V a c).before 3 t d3) _ _ _ h0 hlt Set.univ _)
    isplitl [Hpf]; · iexact Hpf
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨Hpf, H0, H1, H2, H3, S0, S1, S2⟩
    isplitl [Hpf Hg Hs S0 S1 S2]; · iframe
    isplitl [Ho]; · iexact Ho
    isplitl [H0]; · iexact H0
    isplitl [H1]; · iexact H1
    isplitl [H2]; · iexact H2
    iexists _; iexact H3

theorem body_obligation1 (hS : Sched1 a) (c : Dev nD) :
    BodyObligation (dat1 (F := F) V a c) (defs₀ (F := F)) Variants.none () Set.univ := fun t => by
  rw [bigSep_W1, bigSep_W1]
  exact sound_body1 V a hS c t

theorem hin1 (c : Dev nD) :
    (iprop((∃ r, prngReg c r) ∗ prefHeld pre1 c (fun _ => fullShare) a.1 ∗ Pipeline.scopedRest spec1 c) : sProp 𝕄)
      ⊢ (dat1 V a c).Φ 0 := by
  rw [show (dat1 V a c).Φ 0 = PhiS1 V a c 0 (Nat.zero_le _) from rfl, PhiS1_zero V a c 0 _ rfl]
  iintro ⟨Hg, Hpf, Hr⟩
  ihave Hr := (scopedRest1_split (F := F) c).1 $$ Hr
  icases Hr with ⟨Hs, Hc⟩
  iframe

theorem Phi1_out (c : Dev nD) (t : Fin ((cfg1 a).N + 1)) :
    (dat1 V a c).Φ t ⊢ (iprop(((∃ r, prngReg c r) ∗ prefHeld pre1 c (fun _ => fullShare) a.1) ∗ Pipeline.scopedRest spec1 c) : sProp 𝕄) := by
  rw [show (dat1 V a c).Φ t = PhiS1 V a c t.val (Nat.le_of_lt_succ t.isLt) from rfl]
  by_cases hz : t.val = 0
  · rw [PhiS1_zero V a c _ _ hz]
    iintro ⟨Hpf, Hg, Hs, Hc⟩
    isplitl [Hg Hpf]; · iframe
    iapply (scopedRest1_split (F := F) c).2
    iframe
  · rw [PhiS1_pos V a c _ _ hz]
    iintro ⟨Hpf, Hg, Hs, Hc⟩
    ihave Hc := (scr1Any_of_At c _) $$ Hc
    isplitl [Hg Hpf]; · iframe
    iapply (scopedRest1_split (F := F) c).2
    iframe

theorem hout1 (c : Dev nD) :
    (dat1 V a c).Φ (Fin.last (cfg1 a).N) ⊢ (iprop(((∃ r, prngReg c r) ∗ prefHeld pre1 c (fun _ => fullShare) a.1) ∗ Pipeline.scopedRest spec1 c) : sProp 𝕄) :=
  Phi1_out V a c _

end Region1

end Cert.Kernel.Hand

end
-- ==== Proof.Bits.R1Sched.lean ====
import proofs.«403451_j89893665506083_3_alg».proof.Proof.Bits.R1Data
import proofs.«403451_j89893665506083_3_alg».proof.Proof.Bits.Tables

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

theorem index1_3 (a : (pcfg1 (F := F)).Adm) (t : Fin (cfg1 a).N) :
    ((cfg1 a).win 3).index t = cc1_transform_3 k1_off1_inb numel1_S1 a.1 (grid1.coords t) := rfl

theorem flush1_3_false (a : (pcfg1 (F := F)).Adm) (t : Fin (cfg1 a).N) (hlast : t.val + 1 ≠ (cfg1 a).N)
    (hsame : ∀ h : t.val + 1 < (cfg1 a).N, ((cfg1 a).win 3).index ⟨t.val + 1, h⟩ = ((cfg1 a).win 3).index t) :
    ((cfg1 a).win 3).flush t = false := by
  unfold Pipeline.Window.flush
  rw [Bool.and_eq_false_iff]; right
  rw [Bool.or_eq_false_iff]
  refine ⟨decide_eq_false hlast, decide_eq_false ?_⟩
  rintro ⟨h, hx⟩
  exact hx (hsame h)

theorem Sched1.of_tables (a : (pcfg1 (F := F)).Adm) (pf : pre1.Contents (Elt F)) (hpf : a.1 = pf)
    (hq : ∀ i : grid1.Coords, pf.atD 0 (k1_off1 i) = lit0 ⟨(i 1).val, (i 1).isLt⟩)
    (hk : ∀ i : grid1.Coords, pf.atD 1 (k1_off1 i) = lit1 ⟨(i 1).val, (i 1).isLt⟩)
    (htr : ∀ i : grid1.Coords, cc1_transform_3 k1_off1_inb numel1_S1 pf i
      = ![(BitVec.ofNat 32 (i 0).val).toNat, (lit0 ⟨(i 1).val, (i 1).isLt⟩).toNat, (0#32).toNat]) :
    Sched1 a where
  le t := by
    subst hpf
    show (a.1.atD 1 (k1_off1 (grid1.coords t))).slt (a.1.atD 0 (k1_off1 (grid1.coords t))) = true
      ∨ a.1.atD 1 (k1_off1 (grid1.coords t)) = a.1.atD 0 (k1_off1 (grid1.coords t))
    rw [hk, hq]; exact lit_le _
  first h := by
    subst hpf
    show a.1.atD 1 (k1_off1 (grid1.coords ⟨0, h⟩)) = 0#32
    rw [hk]; exact lit1_first h
  noFlush t hne := by
    subst hpf
    have hne' : lit1 ⟨(grid1.coords t 1).val, (grid1.coords t 1).isLt⟩ ≠ lit0 ⟨(grid1.coords t 1).val, (grid1.coords t 1).isLt⟩ := by
      rw [← hk, ← hq]; exact hne
    obtain ⟨hlast, hsame⟩ := flush_closed t hne'
    refine flush1_3_false a t hlast fun h => ?_
    rw [index1_3, index1_3, htr, htr]
    exact hsame h

theorem sched1_adm : Sched1 (F := F) (adm 1) :=
  Sched1.of_tables (adm 1) pf₀ adm_one_val qi_word ki_word tr3_closed

end Cert.Kernel.Hand

end
-- ==== Proof.Bits.Run.lean ====
import proofs.«403451_j89893665506083_3_alg».proof.Proof.Bits.Tables
import proofs.«403451_j89893665506083_3_alg».proof.Proof.Gen.Kernel.Launch
import proofs.«403451_j89893665506083_3_alg».proof.Proof.Gen.Kernel.Skeleton
import proofs.«403451_j89893665506083_3_alg».proof.Proof.Gen.Kernel.Points
import proofs.«403451_j89893665506083_3_alg».proof.Proof.Gen.Kernel.Regions
import proofs.«403451_j89893665506083_3_alg».proof.Proof.Bits.R0Body
import proofs.«403451_j89893665506083_3_alg».proof.Proof.Bits.R1Data
import proofs.«403451_j89893665506083_3_alg».proof.Proof.Bits.R1Sched
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 (launch0 (F := F)).win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) (adm 1) c).arrAt w (cfg1 (F := F) (adm 1)).N
theorem W4_arr (c : Dev nD) (w : Fin (cfg1 (F := F) (adm 1)).W) :
    W4 m ρ c (Proc.devRef .tc (Pipeline.arrRef spec1 w)) = (dat1 (V3 m ρ) (adm 1) c).arrAt w (cfg1 (F := F) (adm 1)).N := by
  unfold W4; exact Pipeline.withArrays_arr spec1 (launch1 (F := F)).win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

theorem hF1 (c : Dev nD) (w : Fin (cfg1 (F := F) (adm 1)).W) : (dat1 (V3 m ρ) (adm 1) c).arrAt w (cfg1 (F := F) (adm 1)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer the second host stretch does not write and that is no array of region 0 enters region 1 as the first stretch left it. -/
theorem W3_keep (c : Dev nD) (r : Ref sig .tc) (h1 : r ∉ hostOps1_W) (h0 : ∀ w, Pipeline.arrRef spec0 w ≠ r) :
    W3 m ρ c (Proc.devRef .tc r) = W1 m ρ c (Proc.devRef .tc r) :=
  (StableHlo.after_of_writes_sub hostOps1 _ hostOps1_writes h1).trans (W2_of_ne m ρ c r h0)

/-- A buffer no host stretch writes and that is no array of either region ends as launched. -/
theorem W4_keep (c : Dev nD) (r : Ref sig .tc) (h3 : ∀ w, Pipeline.arrRef spec1 w ≠ r) (h1 : r ∉ hostOps1_W)
    (h0 : ∀ w, Pipeline.arrRef spec0 w ≠ r) (hW : r ∉ hostOps0_W) :
    W4 m ρ c (Proc.devRef .tc r) = m ((c : Thread nD τ).loc r) := by
  rw [W4_of_ne m ρ c r h3, W3_keep m ρ c r h1 h0]
  exact StableHlo.after_of_writes_sub hostOps0 _ hostOps0_writes hW

theorem W4_main_v18 (c : Dev nD) :
    W4 m ρ c (Proc.devRef .tc main_v18) = (dat1 (V3 m ρ) (adm 1) c).arrAt 3 (cfg1 (F := F) (adm 1)).N :=
  W4_arr m ρ c 3

theorem tbl3 (c : Dev nD) : (fun k : Fin pre1.K => V3 m ρ c (pre1.ref k)) = (adm (F := F) 1).1 :=
  funext fun k => match k with
    | ⟨0, _⟩ => (W3_keep m ρ c main_c (by decide) (by decide)).trans (after_hostOps0_main_c _)
    | ⟨1, _⟩ => (W3_keep m ρ c main_c_0 (by decide) (by decide)).trans (after_hostOps0_main_c_0 _)
    | ⟨_ + 2, h⟩ => absurd h (by simp)

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) (adm 1) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

set_option backward.isDefEq.respectTransparency.types false in

def reg0 : Pipeline.RegionSeg (pcfgs (F := F)) adm (pdats m ρ) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) (launch0 (F := F)).win (launch0 (F := F)).arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V3 m ρ) (adm 1) sched1_adm c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld (Ix := Unit) (Name := ℕ) (U := UR sig nD τ) (Lvl := ℕ) pre1 c (fun _ => fullShare) (adm (F := F) 1).1)
  Z c := Pipeline.unscopedRestP (Ix := Unit) (Name := ℕ) (U := UR sig nD τ) (Lvl := ℕ) pre1 spec1 c (V3 m ρ c)
  hentry c := by
    rw [Pipeline.ownSems0_none]
    have hsplit := Pipeline.arrays_of_unscopedBufs (p := 1) (pcfgs (F := F)) adm (pdats m ρ) (launch1 (F := F)).win (launch1 (F := F)).arr_whole c
      ((pdats m ρ 1 c).share_full fun _ => rfl) (V3 m ρ c) fun _ => rfl
    rw [Pipeline.unscopedBufs_held] at hsplit
    have hs := Pipeline.unscopedRest_split (Ix := Unit) (Name := ℕ) (U := UR sig nD τ) (Lvl := ℕ) (Val := Elt F) preFacts1 c (V3 m ρ c)
    rw [tbl3 m ρ c] at hs
    have hsp := hsplit.trans (sep_mono .rfl (Entails.of_eq hs))
    iintro ⟨⟨Hub, Hp, HO⟩, -, -⟩
    ihave H := hsp $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) (adm 1) c
  hout c := by
    rw [Pipeline.ownSems0_none]
    refine (hout1 (V3 m ρ) (adm 1) c).trans ?_
    iintro ⟨HY, Hs⟩
    isplitl [HY]; · iexact HY
    isplitr; · iempintro
    iexact Hs
  hexit c := by
    have hjoin := Pipeline.unscopedBufs_of_arrays (p := 1) (pcfgs (F := F)) adm (Ix := Unit) (Name := ℕ) (U := UR sig nD τ) (Lvl := ℕ)
      (launch1 (F := F)).win (launch1 (F := F)).arr_whole c (pdats m ρ) ((pdats m ρ 1 c).share_full fun _ => rfl)
      (V3 m ρ c) (V4 m ρ c) ((pdats m ρ 1 c).arrAt · (cfg1 (F := F) (adm 1)).N) (hF1 m ρ c) (hrest1 m ρ c)
    rw [Pipeline.unscopedBufs_held] at hjoin
    have hs := Pipeline.unscopedRest_split (Ix := Unit) (Name := ℕ) (U := UR sig nD τ) (Lvl := ℕ) (Val := Elt F) preFacts1 c (V3 m ρ c)
    rw [tbl3 m ρ c] at hs
    have hjn := (sep_mono .rfl (Entails.of_eq hs.symm)).trans hjoin
    iintro ⟨Ha, HO, ⟨HY, Hpf⟩, Hrest⟩
    imodintro
    isplitl [Ha Hrest HY Hpf]
    · isplitl [Ha Hrest Hpf]
      · iapply hjn
        isplitl [Ha]; · iexact Ha
        isplitl [Hpf]; · iexact Hpf
        iexact Hrest
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with its value: the result buffer ends at what region 1 leaves in its output array, the arguments as launched. -/
theorem run_val : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨h c _ (mem_uc main_v18 (by decide)),
    (h c _ (mem_uc main_arg0 (by decide))).trans (W4_keep m ρ c main_arg0 (by decide) (by decide) (by decide) (by decide)),
    (h c _ (mem_uc main_arg1 (by decide))).trans (W4_keep m ρ c main_arg1 (by decide) (by decide) (by decide) (by decide)),
    (h c _ (mem_uc main_arg2 (by decide))).trans (W4_keep m ρ c main_arg2 (by decide) (by decide) (by decide) (by decide)),
    (h c _ (mem_uc main_arg3 (by decide))).trans (W4_keep m ρ c main_arg3 (by decide) (by decide) (by decide) (by decide)),
    (h c _ (mem_uc main_arg4 (by decide))).trans (W4_keep m ρ c main_arg4 (by decide) (by decide) (by decide) (by decide)),
    (h c _ (mem_uc main_arg5 (by decide))).trans (W4_keep m ρ c main_arg5 (by decide) (by decide) (by decide) (by decide)),
    (h c _ (mem_uc main_arg6 (by decide))).trans (W4_keep m ρ c main_arg6 (by decide) (by decide) (by decide) (by decide))⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_val m ρ)

end Cert.Kernel.Hand

end
-- ==== Proof.lean ====
import proofs.«403451_j89893665506083_3_alg».proof.Defs
import proofs.«403451_j89893665506083_3_alg».proof.Proof.Small
import proofs.«403451_j89893665506083_3_alg».proof.Proof.Finite
import proofs.«403451_j89893665506083_3_alg».proof.Proof.RefValue
import proofs.«403451_j89893665506083_3_alg».proof.Proof.KerValue
import proofs.«403451_j89893665506083_3_alg».proof.Proof.Run
import proofs.«403451_j89893665506083_3_alg».proof.Proof.Bits.Run
import proofs.«403451_j89893665506083_3_alg».proof.Proof.Gen.Kernel
import proofs.«403451_j89893665506083_3_alg».proof.Proof.Gen.KernelIdeal
import proofs.«403451_j89893665506083_3_alg».proof.Proof.Gen.ReferenceIdeal
import proofs.«403451_j89893665506083_3_alg».proof.Proof.Gen.Pre_finite_inputs
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts
  Cert.Pre_finite_inputs.Gen.facts

/-- Both kernel programs run to the end with their arguments untouched: the two kernel calls in turn. -/
theorem frame_k : Cert.frame_Kernel := fun m ρ _ => Cert.Kernel.Hand.frame (F := Bits) m ρ

theorem frame_ki : Cert.frame_KernelIdeal := fun m ρ _ => Cert.KernelIdeal.Hand.frame (F := Ideal) m ρ

/-- Over the extended reals both programs end with the causal softmax-weighted sum of the value rows; the inputs are real numbers and agree. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v18),
    Cert.KernelIdeal.Hand.run_val (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Pre_finite_inputs.Finite.inputs_real _ _ _ _ _ _ _ (hpre c)
  obtain ⟨e0, e1, e2, e3, e4, e5, e6⟩ := hagree c
  funext i
  obtain ⟨bi, r, d, rfl⟩ : ∃ bi r d, i = ValueIdx.ix3 bi r d := ⟨i 0, i 1, i 2, ValueIdx.eq_ix3 i⟩
  refine (Cert.ReferenceIdeal.RefValue.ref_apply m' c (by rw [e0]; exact h0) (by rw [e1]; exact h1) (by rw [e2]; exact h2)
    (by rw [e3]; exact h3) (by rw [e4]; exact h4) (by rw [e5]; exact h5) (by rw [e6]; exact h6) bi r d).trans ?_
  refine Eq.trans ?_ (Cert.KernelIdeal.Val.ker_apply m ρ c h0 h1 h2 h3 h4 h5 h6 bi r d).symm
  have x0 : Cert.ReferenceIdeal.RefValue.argX m' c = Cert.KernelIdeal.Val.kArgX m c :=
    funext fun bi => funext fun r => funext fun d => congrFun e0 _
  have x1 : Cert.ReferenceIdeal.RefValue.argWq m' c = Cert.KernelIdeal.Val.kArgWq m c :=
    funext fun e => funext fun d => congrFun e1 _
  have x2 : Cert.ReferenceIdeal.RefValue.argBq m' c = Cert.KernelIdeal.Val.kArgBq m c := funext fun e => congrFun e2 _
  have x3 : Cert.ReferenceIdeal.RefValue.argWk m' c = Cert.KernelIdeal.Val.kArgWk m c :=
    funext fun e => funext fun d => congrFun e3 _
  have x4 : Cert.ReferenceIdeal.RefValue.argBk m' c = Cert.KernelIdeal.Val.kArgBk m c := funext fun e => congrFun e4 _
  have x5 : Cert.ReferenceIdeal.RefValue.argWv m' c = Cert.KernelIdeal.Val.kArgWv m c :=
    funext fun e => funext fun d => congrFun e5 _
  have x6 : Cert.ReferenceIdeal.RefValue.argBv m' c = Cert.KernelIdeal.Val.kArgBv m c := funext fun e => congrFun e6 _
  simp only [Cert.ReferenceIdeal.RefValue.projV, Cert.ReferenceIdeal.RefValue.projQ, Cert.ReferenceIdeal.RefValue.projK,
    x0, x1, x2, x3, x4, x5, x6]

theorem claim : Cert.Claim :=
  ⟨Cert.Kernel.Gen.facts, Cert.KernelIdeal.Gen.facts, Cert.ReferenceIdeal.Gen.facts, Cert.Pre_finite_inputs.Gen.facts,
    frame_k, frame_ki, Small.frame_ri, Small.preserves, algebraic⟩

end Cert.Proof

end
